-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x800000_S1x800000_0_0 : S2x800000.Slices ![0, 0] S1x800000
  shapeCasts_S1x800000_S800000 : S1x800000.ShapeCasts S800000

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg9 : FVec F S128 .f32) (main_arg10 : FVec F S128x2 .f32) (main_arg11 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg10
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg6 : FVec F S128x128 .f32) (main_arg7 : FVec F S128 .f32) (main_arg8 : FVec F S128x128 .f32) (main_arg9 : FVec F S128 .f32) (main_arg10 : FVec F S128x2 .f32) (main_arg11 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S_ : Shape := ⟨0, ![]⟩
abbrev S800000x1 : Shape := ⟨2, ![800000, 1]⟩
abbrev S800768x1 : Shape := ⟨2, ![800768, 1]⟩
abbrev S1x800768 : Shape := ⟨2, ![1, 800768]⟩
abbrev S50000x1 : Shape := ⟨2, ![50000, 1]⟩
abbrev S50176x1 : Shape := ⟨2, ![50176, 1]⟩
abbrev S1x50000 : Shape := ⟨2, ![1, 50000]⟩
abbrev S1x50176 : Shape := ⟨2, ![1, 50176]⟩
abbrev S64 : Shape := ⟨1, ![64]⟩
abbrev S50176x128 : Shape := ⟨2, ![50176, 128]⟩
abbrev S1024x128 : Shape := ⟨2, ![1024, 128]⟩
abbrev S800768x128 : Shape := ⟨2, ![800768, 128]⟩
abbrev S2048x1 : Shape := ⟨2, ![2048, 1]⟩
abbrev S2048x128 : Shape := ⟨2, ![2048, 128]⟩
abbrev S2048x1024 : Shape := ⟨2, ![2048, 1024]⟩
abbrev S1x2048 : Shape := ⟨2, ![1, 2048]⟩
abbrev S1024x2048 : Shape := ⟨2, ![1024, 2048]⟩
abbrev S1x128 : Shape := ⟨2, ![1, 128]⟩
abbrev S1024x1 : Shape := ⟨2, ![1024, 1]⟩
abbrev S64x128 : Shape := ⟨2, ![64, 128]⟩
abbrev S64x50176 : Shape := ⟨2, ![64, 50176]⟩
abbrev S64x1 : Shape := ⟨2, ![64, 1]⟩
abbrev S64x2 : Shape := ⟨2, ![64, 2]⟩
abbrev S1x2 : Shape := ⟨2, ![1, 2]⟩

abbrev nBuf : Space → Nat
  | .hbm => 107
  | .vmem => 81
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S800000, .f32⟩
  | .hbm, ⟨51, _⟩ => ⟨S50000, .f32⟩
  | .hbm, ⟨52, _⟩ => ⟨S800000x1, .i32⟩
  | .hbm, ⟨53, _⟩ => ⟨S_, .i32⟩
  | .hbm, ⟨54, _⟩ => ⟨S_, .i32⟩
  | .hbm, ⟨55, _⟩ => ⟨S800768x1, .i32⟩
  | .hbm, ⟨56, _⟩ => ⟨S1x800000, .i32⟩
  | .hbm, ⟨57, _⟩ => ⟨S_, .i32⟩
  | .hbm, ⟨58, _⟩ => ⟨S_, .i32⟩
  | .hbm, ⟨59, _⟩ => ⟨S1x800768, .i32⟩
  | .hbm, ⟨60, _⟩ => ⟨S800000x1, .f32⟩
  | .hbm, ⟨61, _⟩ => ⟨S_, .f32⟩
  | .hbm, ⟨62, _⟩ => ⟨S_, .f32⟩
  | .hbm, ⟨63, _⟩ => ⟨S800768x1, .f32⟩
  | .hbm, ⟨64, _⟩ => ⟨S50000x1, .f32⟩
  | .hbm, ⟨65, _⟩ => ⟨S_, .f32⟩
  | .hbm, ⟨66, _⟩ => ⟨S_, .f32⟩
  | .hbm, ⟨67, _⟩ => ⟨S50176x1, .f32⟩
  | .hbm, ⟨68, _⟩ => ⟨S1x50000, .i32⟩
  | .hbm, ⟨69, _⟩ => ⟨S_, .i32⟩
  | .hbm, ⟨70, _⟩ => ⟨S_, .i32⟩
  | .hbm, ⟨71, _⟩ => ⟨S1x50176, .i32⟩
  | .hbm, ⟨72, _⟩ => ⟨S_, .f32⟩
  | .hbm, ⟨73, _⟩ => ⟨S50000, .f32⟩
  | .hbm, ⟨74, _⟩ => ⟨S_, .f32⟩
  | .hbm, ⟨75, _⟩ => ⟨S64, .f32⟩
  | .hbm, ⟨76, _⟩ => ⟨S50000x1, .i32⟩
  | .hbm, ⟨77, _⟩ => ⟨S64, .f32⟩
  | .hbm, ⟨78, _⟩ => ⟨S_, .f32⟩
  | .hbm, ⟨79, _⟩ => ⟨S_, .f32⟩
  | .hbm, ⟨80, _⟩ => ⟨S50176x128, .f32⟩
  | .hbm, ⟨81, _⟩ => ⟨S50176x128, .f32⟩
  | .hbm, ⟨82, _⟩ => ⟨S800768x128, .f32⟩
  | .hbm, ⟨83, _⟩ => ⟨S50176x128, .f32⟩
  | .hbm, ⟨84, _⟩ => ⟨S1x128, .f32⟩
  | .hbm, ⟨85, _⟩ => ⟨S50176x128, .f32⟩
  | .hbm, ⟨86, _⟩ => ⟨S50176x128, .f32⟩
  | .hbm, ⟨87, _⟩ => ⟨S800768x128, .f32⟩
  | .hbm, ⟨88, _⟩ => ⟨S50176x128, .f32⟩
  | .hbm, ⟨89, _⟩ => ⟨S1x128, .f32⟩
  | .hbm, ⟨90, _⟩ => ⟨S50176x128, .f32⟩
  | .hbm, ⟨91, _⟩ => ⟨S50176x128, .f32⟩
  | .hbm, ⟨92, _⟩ => ⟨S800768x128, .f32⟩
  | .hbm, ⟨93, _⟩ => ⟨S50176x128, .f32⟩
  | .hbm, ⟨94, _⟩ => ⟨S1x128, .f32⟩
  | .hbm, ⟨95, _⟩ => ⟨S50176x128, .f32⟩
  | .hbm, ⟨96, _⟩ => ⟨S64x128, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | .hbm, ⟨103, _⟩ => ⟨S64x2, .f32⟩
  | .hbm, ⟨104, _⟩ => ⟨S1x2, .f32⟩
  | .hbm, ⟨105, _⟩ => ⟨S64x2, .f32⟩
  | .hbm, ⟨106, _⟩ => ⟨S64x2, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | .local _ .vmem, ⟨5, _⟩ => ⟨S50176x128, .f32⟩
  | .local _ .vmem, ⟨6, _⟩ => ⟨S2048x1, .i32⟩
  | .local _ .vmem, ⟨7, _⟩ => ⟨S2048x1, .i32⟩
  | .local _ .vmem, ⟨8, _⟩ => ⟨S2048x1, .f32⟩
  | .local _ .vmem, ⟨9, _⟩ => ⟨S2048x1, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x2048, .i32⟩
  | .local _ .vmem, ⟨15, _⟩ => ⟨S1x2048, .i32⟩
  | .local _ .vmem, ⟨16, _⟩ => ⟨S50176x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x1, .f32⟩
  | .local _ .vmem, ⟨22, _⟩ => ⟨S1024x1, .f32⟩
  | .local _ .vmem, ⟨23, _⟩ => ⟨S1x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S128x128, .f32⟩
  | .local _ .vmem, ⟨29, _⟩ => ⟨S1024x128, .f32⟩
  | .local _ .vmem, ⟨30, _⟩ => ⟨S1024x128, .f32⟩
  | .local _ .vmem, ⟨31, _⟩ => ⟨S50176x128, .f32⟩
  | .local _ .vmem, ⟨32, _⟩ => ⟨S2048x1, .i32⟩
  | .local _ .vmem, ⟨33, _⟩ => ⟨S2048x1, .i32⟩
  | .local _ .vmem, ⟨34, _⟩ => ⟨S2048x1, .f32⟩
  | .local _ .vmem, ⟨35, _⟩ => ⟨S2048x1, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S1x2048, .i32⟩
  | .local _ .vmem, ⟨41, _⟩ => ⟨S1x2048, .i32⟩
  | .local _ .vmem, ⟨42, _⟩ => ⟨S50176x128, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | .local _ .vmem, ⟨46, _⟩ => ⟨S1024x128, .f32⟩
  | .local _ .vmem, ⟨47, _⟩ => ⟨S1024x1, .f32⟩
  | .local _ .vmem, ⟨48, _⟩ => ⟨S1024x1, .f32⟩
  | .local _ .vmem, ⟨49, _⟩ => ⟨S1x128, .f32⟩
  | .local _ .vmem, ⟨50, _⟩ => ⟨S1024x128, .f32⟩
  | .local _ .vmem, ⟨51, _⟩ => ⟨S1024x128, .f32⟩
  | .local _ .vmem, ⟨52, _⟩ => ⟨S1024x128, .f32⟩
  | .local _ .vmem, ⟨53, _⟩ => ⟨S1024x128, .f32⟩
  | .local _ .vmem, ⟨54, _⟩ => ⟨S128x128, .f32⟩
  | .local _ .vmem, ⟨55, _⟩ => ⟨S1024x128, .f32⟩
  | .local _ .vmem, ⟨56, _⟩ => ⟨S1024x128, .f32⟩
  | .local _ .vmem, ⟨57, _⟩ => ⟨S50176x128, .f32⟩
  | .local _ .vmem, ⟨58, _⟩ => ⟨S2048x1, .i32⟩
  | .local _ .vmem, ⟨59, _⟩ => ⟨S2048x1, .i32⟩
  | .local _ .vmem, ⟨60, _⟩ => ⟨S2048x1, .f32⟩
  | .local _ .vmem, ⟨61, _⟩ => ⟨S2048x1, .f32⟩
  | .local _ .vmem, ⟨62, _⟩ => ⟨S2048x128, .f32⟩
  | .local _ .vmem, ⟨63, _⟩ => ⟨S2048x128, .f32⟩
  | .local _ .vmem, ⟨64, _⟩ => ⟨S2048x128, .f32⟩
  | .local _ .vmem, ⟨65, _⟩ => ⟨S2048x128, .f32⟩
  | .local _ .vmem, ⟨66, _⟩ => ⟨S1x2048, .i32⟩
  | .local _ .vmem, ⟨67, _⟩ => ⟨S1x2048, .i32⟩
  | .local _ .vmem, ⟨68, _⟩ => ⟨S50176x128, .f32⟩
  | .local _ .vmem, ⟨69, _⟩ => ⟨S1024x128, .f32⟩
  | .local _ .vmem, ⟨70, _⟩ => ⟨S1024x128, .f32⟩
  | .local _ .vmem, ⟨71, _⟩ => ⟨S1024x128, .f32⟩
  | .local _ .vmem, ⟨72, _⟩ => ⟨S1024x128, .f32⟩
  | .local _ .vmem, ⟨73, _⟩ => ⟨S1024x1, .f32⟩
  | .local _ .vmem, ⟨74, _⟩ => ⟨S1024x1, .f32⟩
  | .local _ .vmem, ⟨75, _⟩ => ⟨S1x128, .f32⟩
  | .local _ .vmem, ⟨76, _⟩ => ⟨S1024x128, .f32⟩
  | .local _ .vmem, ⟨77, _⟩ => ⟨S1024x128, .f32⟩
  | .local _ .vmem, ⟨78, _⟩ => ⟨S50176x128, .f32⟩
  | .local _ .vmem, ⟨79, _⟩ => ⟨S1x50176, .i32⟩
  | .local _ .vmem, ⟨80, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_call1_v0 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_call3_v0 : Ref sig .tc := ⟨.hbm, 62, rfl⟩
abbrev main_v35 : Ref sig .tc := ⟨.hbm, 63, rfl⟩
abbrev main_v36 : Ref sig .tc := ⟨.hbm, 64, rfl⟩
abbrev main_cst_9 : Ref sig .tc := ⟨.hbm, 65, rfl⟩
abbrev main_call4_v0 : Ref sig .tc := ⟨.hbm, 66, rfl⟩
abbrev main_v37 : Ref sig .tc := ⟨.hbm, 67, rfl⟩
abbrev main_v38 : Ref sig .tc := ⟨.hbm, 68, rfl⟩
abbrev main_c_10 : Ref sig .tc := ⟨.hbm, 69, rfl⟩
abbrev main_call5_v0 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_cst_12 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_13 : Ref sig .tc := ⟨.hbm, 78, rfl⟩
abbrev main_call6_v0 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc7_stg3_0 : Ref sig .tc := ⟨.vmem, 49, rfl⟩
abbrev cc7_stg4_0 : Ref sig .tc := ⟨.vmem, 50, rfl⟩
abbrev cc7_stg4_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc9_stg0_0 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc9_stg3_0 : Ref sig .tc := ⟨.vmem, 62, rfl⟩
abbrev cc9_stg3_1 : Ref sig .tc := ⟨.vmem, 63, rfl⟩
abbrev cc10_stg0_0 : Ref sig .tc := ⟨.vmem, 64, rfl⟩
abbrev cc10_stg0_1 : Ref sig .tc := ⟨.vmem, 65, rfl⟩
abbrev cc10_stg1_0 : Ref sig .tc := ⟨.vmem, 66, rfl⟩
abbrev cc10_stg1_1 : Ref sig .tc := ⟨.vmem, 67, rfl⟩
abbrev cc10_stg2_0 : Ref sig .tc := ⟨.vmem, 68, rfl⟩
abbrev cc11_stg0_0 : Ref sig .tc := ⟨.vmem, 69, rfl⟩
abbrev cc11_stg0_1 : Ref sig .tc := ⟨.vmem, 70, rfl⟩
abbrev cc11_stg1_0 : Ref sig .tc := ⟨.vmem, 71, rfl⟩
abbrev cc11_stg1_1 : Ref sig .tc := ⟨.vmem, 72, rfl⟩
abbrev cc11_stg2_0 : Ref sig .tc := ⟨.vmem, 73, rfl⟩
abbrev cc11_stg2_1 : Ref sig .tc := ⟨.vmem, 74, rfl⟩
abbrev cc11_stg3_0 : Ref sig .tc := ⟨.vmem, 75, rfl⟩
abbrev cc11_stg4_0 : Ref sig .tc := ⟨.vmem, 76, rfl⟩
abbrev cc11_stg4_1 : Ref sig .tc := ⟨.vmem, 77, rfl⟩
abbrev cc12_stg0_0 : Ref sig .tc := ⟨.vmem, 78, rfl⟩
abbrev cc12_stg1_0 : Ref sig .tc := ⟨.vmem, 79, rfl⟩
abbrev cc12_stg2_0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc7_sem3_0 : DmaSem sig := 49
abbrev cc7_sem4_0 : DmaSem sig := 50
abbrev cc7_sem4_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc9_sem0_0 : DmaSem sig := 57
abbrev cc9_sem1_0 : DmaSem sig := 58
abbrev cc9_sem1_1 : DmaSem sig := 59
abbrev cc9_sem2_0 : DmaSem sig := 60
abbrev cc9_sem2_1 : DmaSem sig := 61
abbrev cc9_sem3_0 : DmaSem sig := 62
abbrev cc9_sem3_1 : DmaSem sig := 63
abbrev cc10_sem0_0 : DmaSem sig := 64
abbrev cc10_sem0_1 : DmaSem sig := 65
abbrev cc10_sem1_0 : DmaSem sig := 66
abbrev cc10_sem1_1 : DmaSem sig := 67
abbrev cc10_sem2_0 : DmaSem sig := 68
abbrev cc11_sem0_0 : DmaSem sig := 69
abbrev cc11_sem0_1 : DmaSem sig := 70
abbrev cc11_sem1_0 : DmaSem sig := 71
abbrev cc11_sem1_1 : DmaSem sig := 72
abbrev cc11_sem2_0 : DmaSem sig := 73
abbrev cc11_sem2_1 : DmaSem sig := 74
abbrev cc11_sem3_0 : DmaSem sig := 75
abbrev cc11_sem4_0 : DmaSem sig := 76
abbrev cc11_sem4_1 : DmaSem sig := 77
abbrev cc12_sem0_0 : DmaSem sig := 78
abbrev cc12_sem1_0 : DmaSem sig := 79
abbrev cc12_sem2_0 : DmaSem sig := 80

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![391], ![false]⟩

@[reducible] def k1_t1_loop : Scf.Loop 32 :=
  let c0_i32 : BitVec 32 := 0#32
  let c49_i32 : BitVec 32 := 49#32
  let v3 : BitVec 32 := Scalar.addi c0_i32 c49_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c1024_i32 : BitVec 32 := 1024#32
  let v10 : BitVec 32 := Scalar.muli arg5 c1024_i32
  v10
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c1024_i32 : BitVec 32 := 1024#32
  let v10 : BitVec 32 := Scalar.muli arg5 c1024_i32
  let v11 : BitVec 32 := v10
  let v12 : Index := Scalar.indexCast v11
  let c0_6 : Index := 0#32
  ![v12.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S50176x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![391], ![false]⟩

@[reducible] def k2_t1_loop : Scf.Loop 32 :=
  let c0_i32_4 : BitVec 32 := 0#32
  let c49_i32 : BitVec 32 := 49#32
  let v8 : BitVec 32 := Scalar.addi c0_i32_4 c49_i32
  let c1_i32 : BitVec 32 := 1#32
  ⟨c0_i32_4, v8, c1_i32⟩
def k2_mult1 (k2_t1 : Fin k2_t1_loop.trips) : BitVec 32 :=
  let c0_i32_4 : BitVec 32 := 0#32
  let c1_i32 : BitVec 32 := 1#32
  let arg4 : BitVec 32 := Scf.iv c0_i32_4 c1_i32 k2_t1
  let c1024_i32 : BitVec 32 := 1024#32
  let v9 : BitVec 32 := Scalar.muli arg4 c1024_i32
  v9
def k2_off1 (k2_t1 : Fin k2_t1_loop.trips) : Fin 2 → Nat :=
  let c0_i32_4 : BitVec 32 := 0#32
  let c1_i32 : BitVec 32 := 1#32
  let arg4 : BitVec 32 := Scf.iv c0_i32_4 c1_i32 k2_t1
  let c1024_i32 : BitVec 32 := 1024#32
  let v9 : BitVec 32 := Scalar.muli arg4 c1024_i32
  let v10 : BitVec 32 := v9
  let v20 : Index := Scalar.indexCast v10
  let c0_6 : Index := 0#32
  ![v20.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50176x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![49], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![391], ![false]⟩

@[reducible] def k5_t1_loop : Scf.Loop 32 :=
  let c0_i32 : BitVec 32 := 0#32
  let c49_i32 : BitVec 32 := 49#32
  let v3 : BitVec 32 := Scalar.addi c0_i32 c49_i32
  let c1_i32 : BitVec 32 := 1#32
  ⟨c0_i32, v3, c1_i32⟩
def k5_mult1 (k5_t1 : Fin k5_t1_loop.trips) : BitVec 32 :=
  let c0_i32 : BitVec 32 := 0#32
  let c1_i32 : BitVec 32 := 1#32
  let arg5 : BitVec 32 := Scf.iv c0_i32 c1_i32 k5_t1
  let c1024_i32 : BitVec 32 := 1024#32
  let v10 : BitVec 32 := Scalar.muli arg5 c1024_i32
  v10
def k5_off1 (k5_t1 : Fin k5_t1_loop.trips) : Fin 2 → Nat :=
  let c0_i32 : BitVec 32 := 0#32
  let c1_i32 : BitVec 32 := 1#32
  let arg5 : BitVec 32 := Scf.iv c0_i32 c1_i32 k5_t1
  let c1024_i32 : BitVec 32 := 1024#32
  let v10 : BitVec 32 := Scalar.muli arg5 c1024_i32
  let v11 : BitVec 32 := v10
  let v12 : Index := Scalar.indexCast v11
  let c0_6 : Index := 0#32
  ![v12.toNat, 0]
def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S50176x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S2048x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![391], ![false]⟩

@[reducible] def k6_t1_loop : Scf.Loop 32 :=
  let c0_i32_4 : BitVec 32 := 0#32
  let c49_i32 : BitVec 32 := 49#32
  let v8 : BitVec 32 := Scalar.addi c0_i32_4 c49_i32
  let c1_i32 : BitVec 32 := 1#32
  ⟨c0_i32_4, v8, c1_i32⟩
def k6_mult1 (k6_t1 : Fin k6_t1_loop.trips) : BitVec 32 :=
  let c0_i32_4 : BitVec 32 := 0#32
  let c1_i32 : BitVec 32 := 1#32
  let arg4 : BitVec 32 := Scf.iv c0_i32_4 c1_i32 k6_t1
  let c1024_i32 : BitVec 32 := 1024#32
  let v9 : BitVec 32 := Scalar.muli arg4 c1024_i32
  v9
def k6_off1 (k6_t1 : Fin k6_t1_loop.trips) : Fin 2 → Nat :=
  let c0_i32_4 : BitVec 32 := 0#32
  let c1_i32 : BitVec 32 := 1#32
  let arg4 : BitVec 32 := Scf.iv c0_i32_4 c1_i32 k6_t1
  let c1024_i32 : BitVec 32 := 1024#32
  let v9 : BitVec 32 := Scalar.muli arg4 c1024_i32
  let v10 : BitVec 32 := v9
  let v20 : Index := Scalar.indexCast v10
  let c0_6 : Index := 0#32
  ![v20.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x2048 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S50176x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![49], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1024x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1024x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![49], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![391], ![false]⟩

@[reducible] def k9_t1_loop : Scf.Loop 32 :=
  let c0_i32 : BitVec 32 := 0#32
  let c49_i32 : BitVec 32 := 49#32
  let v3 : BitVec 32 := Scalar.addi c0_i32 c49_i32
  let c1_i32 : BitVec 32 := 1#32
  ⟨c0_i32, v3, c1_i32⟩
def k9_mult1 (k9_t1 : Fin k9_t1_loop.trips) : BitVec 32 :=
  let c0_i32 : BitVec 32 := 0#32
  let c1_i32 : BitVec 32 := 1#32
  let arg5 : BitVec 32 := Scf.iv c0_i32 c1_i32 k9_t1
  let c1024_i32 : BitVec 32 := 1024#32
  let v10 : BitVec 32 := Scalar.muli arg5 c1024_i32
  v10
def k9_off1 (k9_t1 : Fin k9_t1_loop.trips) : Fin 2 → Nat :=
  let c0_i32 : BitVec 32 := 0#32
  let c1_i32 : BitVec 32 := 1#32
  let arg5 : BitVec 32 := Scf.iv c0_i32 c1_i32 k9_t1
  let c1024_i32 : BitVec 32 := 1024#32
  let v10 : BitVec 32 := Scalar.muli arg5 c1024_i32
  let v11 : BitVec 32 := v10
  let v12 : Index := Scalar.indexCast v11
  let c0_6 : Index := 0#32
  ![v12.toNat, 0]
def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S50176x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 2 → Memref sig .tc .vmem S2048x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2048x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S2048x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![391], ![false]⟩

@[reducible] def k10_t1_loop : Scf.Loop 32 :=
  let c0_i32_4 : BitVec 32 := 0#32
  let c49_i32 : BitVec 32 := 49#32
  let v8 : BitVec 32 := Scalar.addi c0_i32_4 c49_i32
  let c1_i32 : BitVec 32 := 1#32
  ⟨c0_i32_4, v8, c1_i32⟩
def k10_mult1 (k10_t1 : Fin k10_t1_loop.trips) : BitVec 32 :=
  let c0_i32_4 : BitVec 32 := 0#32
  let c1_i32 : BitVec 32 := 1#32
  let arg4 : BitVec 32 := Scf.iv c0_i32_4 c1_i32 k10_t1
  let c1024_i32 : BitVec 32 := 1024#32
  let v9 : BitVec 32 := Scalar.muli arg4 c1024_i32
  v9
def k10_off1 (k10_t1 : Fin k10_t1_loop.trips) : Fin 2 → Nat :=
  let c0_i32_4 : BitVec 32 := 0#32
  let c1_i32 : BitVec 32 := 1#32
  let arg4 : BitVec 32 := Scf.iv c0_i32_4 c1_i32 k10_t1
  let c1024_i32 : BitVec 32 := 1024#32
  let v9 : BitVec 32 := Scalar.muli arg4 c1024_i32
  let v10 : BitVec 32 := v9
  let v20 : Index := Scalar.indexCast v10
  let c0_6 : Index := 0#32
  ![v20.toNat, 0]
def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2048x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x2048 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S50176x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![49], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1024x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1024x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1024x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S1024x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S50176x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S1x50176 .i32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S64x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S800000_S800000x1 : S800000.ShapeCasts S800000x1
  pads_S800000x1_S800768x1_07680_000 : S800000x1.Pads (![0, 0] : Fin 2 → Nat) ![768, 0] ![0, 0] S800768x1
  h_S_ : 0 < S_.numel
  shapeCasts_S800000_S1x800000 : S800000.ShapeCasts S1x800000
  pads_S1x800000_S1x800768_000_07680 : S1x800000.Pads (![0, 0] : Fin 2 → Nat) ![0, 768] ![0, 0] S1x800768
  shapeCasts_S50000_S50000x1 : S50000.ShapeCasts S50000x1
  pads_S50000x1_S50176x1_01760_000 : S50000x1.Pads (![0, 0] : Fin 2 → Nat) ![176, 0] ![0, 0] S50176x1
  shapeCasts_S50000_S1x50000 : S50000.ShapeCasts S1x50000
  pads_S1x50000_S1x50176_000_01760 : S1x50000.Pads (![0, 0] : Fin 2 → Nat) ![0, 176] ![0, 0] S1x50176
  bcast_S_S64 : S_.BroadcastsInDim S64 (![] : Fin 0 → Fin S64.rank)
  bcast_S50000_S50000x1_0 : S50000.BroadcastsInDim S50000x1 (![0] : Fin 1 → Fin S50000x1.rank)
  pads_S50000x128_S50176x128_01760_000 : S50000x128.Pads (![0, 0] : Fin 2 → Nat) ![176, 0] ![0, 0] S50176x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  inb_S50176x128_S50176x128_0_0 : ∀ a, (![0, 0] : Fin 2 → Nat) a + S50176x128.size a ≤ S50176x128.size a
  h_S50176x128 : 0 < S50176x128.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S2048x128_S2048x128 : S2048x128.ShapeCasts S2048x128
  iota_S1024x2048_d0_w32 : S1024x2048.Iotas .tc 32 [0]
  broadcasts_S1x2048_S1024x2048 : S1x2048.Broadcasts S1024x2048
  shapeCasts_S128_S1x128 : S128.ShapeCasts S1x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x50176_S1x50176_0_0 : ∀ a, (![0, 0] : Fin 2 → Nat) a + S1x50176.size a ≤ S1x50176.size a
  h_S1x50176 : 0 < S1x50176.numel
  shapeCasts_S1x50176_S1x50176 : S1x50176.ShapeCasts S1x50176
  iota_S64x50176_d0_w32 : S64x50176.Iotas .tc 32 [0]
  broadcasts_S1x50176_S64x50176 : S1x50176.Broadcasts S64x50176
  shapeCasts_S50176x128_S50176x128 : S50176x128.ShapeCasts S50176x128
  inb_S64x128_S64x128_0_0 : ∀ a, (![0, 0] : Fin 2 → Nat) a + S64x128.size a ≤ S64x128.size a
  h_S64x128 : 0 < S64x128.numel
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  scatter_S64_S50000x1_S50000_n_0_0_1_wf : ScatterDims.WF S64 S50000x1 S50000 [] [0] [0] 1
  dot_S1024x128_S128x128_S1024x128_1_0_0_1_n_n_wf : DotDims.WF S1024x128 S128x128 S1024x128 [1] [0] [0] [1] [] []
  dot_S2048x1024_S1024x128_S2048x128_1_0_0_1_n_n_wf : DotDims.WF S2048x1024 S1024x128 S2048x128 [1] [0] [0] [1] [] []
  dot_S1024x2048_S2048x128_S1024x128_1_0_0_1_n_n_wf : DotDims.WF S1024x2048 S2048x128 S1024x128 [1] [0] [0] [1] [] []
  dot_S64x50176_S50176x128_S64x128_1_0_0_1_n_n_wf : DotDims.WF S64x50176 S50176x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S50176x128.size a
  hwx0_0 : ∀ i : grid0.Coords, EltTy.bits .f32 = 32 ∨ (Rect.block (s := S50176x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .f32 = 32 ∨ (Rect.block (s := S50176x128) S1024x128.size (cc0_transform_2 i) (hinb0_2 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x128.size a ≤ S50176x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S50176x128.size a ≤ S50176x128.size a
  hwx1_0 : ∀ i : grid1.Coords, EltTy.bits .f32 = 32 ∨ (Rect.block (s := S50176x128) S50176x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S800768x1.size a
  hwx1_1 : ∀ i : grid1.Coords, EltTy.bits .i32 = 32 ∨ (Rect.block (s := S800768x1) S2048x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S800768x1.size a
  hwx1_2 : ∀ i : grid1.Coords, EltTy.bits .f32 = 32 ∨ (Rect.block (s := S800768x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S800768x128.size a
  hwx1_3 : ∀ i : grid1.Coords, EltTy.bits .f32 = 32 ∨ (Rect.block (s := S800768x128) S2048x128.size (cc1_transform_3 i) (hinb1_3 i)).WholeWords (EltTy.packing .f32)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S1024x128.size a ≤ S50176x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S800768x128.size a
  hwx2_0 : ∀ i : grid2.Coords, EltTy.bits .f32 = 32 ∨ (Rect.block (s := S800768x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x800768.size a
  hwx2_1 : ∀ i : grid2.Coords, EltTy.bits .i32 = 32 ∨ (Rect.block (s := S1x800768) S1x2048.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50176x128.size a ≤ S50176x128.size a
  hwx2_2 : ∀ i : grid2.Coords, EltTy.bits .f32 = 32 ∨ (Rect.block (s := S50176x128) S50176x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S50176x128.size a
  hwx3_0 : ∀ i : grid3.Coords, EltTy.bits .f32 = 32 ∨ (Rect.block (s := S50176x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S50176x128.size a
  hwx3_1 : ∀ i : grid3.Coords, EltTy.bits .f32 = 32 ∨ (Rect.block (s := S50176x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S50176x1.size a
  hwx3_2 : ∀ i : grid3.Coords, EltTy.bits .f32 = 32 ∨ (Rect.block (s := S50176x1) S1024x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S50176x128.size a
  hwx3_4 : ∀ i : grid3.Coords, EltTy.bits .f32 = 32 ∨ (Rect.block (s := S50176x128) S1024x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S50176x128.size a
  hwx4_0 : ∀ i : grid4.Coords, EltTy.bits .f32 = 32 ∨ (Rect.block (s := S50176x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S50176x128.size a
  hwx4_2 : ∀ i : grid4.Coords, EltTy.bits .f32 = 32 ∨ (Rect.block (s := S50176x128) S1024x128.size (cc4_transform_2 i) (hinb4_2 i)).WholeWords (EltTy.packing .f32)
  hrank5 : 0 < grid5.rank
  k5_t1_ok : k5_t1_loop.OK
  k5_mult1_dvd : ∀ k5_t1 : Fin k5_t1_loop.trips, 1024 ∣ (k5_mult1 k5_t1).toNat
  k5_off1_inb : ∀ k5_t1 : Fin k5_t1_loop.trips, ∀ a, (k5_off1 k5_t1) a + S1024x128.size a ≤ S50176x128.size a
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S50176x128.size a ≤ S50176x128.size a
  hwx5_0 : ∀ i : grid5.Coords, EltTy.bits .f32 = 32 ∨ (Rect.block (s := S50176x128) S50176x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1.size a ≤ S800768x1.size a
  hwx5_1 : ∀ i : grid5.Coords, EltTy.bits .i32 = 32 ∨ (Rect.block (s := S800768x1) S2048x1.size (cc5_transform_1 i) (hinb5_1 i)).WholeWords (EltTy.packing .i32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S800768x1.size a
  hwx5_2 : ∀ i : grid5.Coords, EltTy.bits .f32 = 32 ∨ (Rect.block (s := S800768x1) S2048x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x128.size a ≤ S800768x128.size a
  hwx5_3 : ∀ i : grid5.Coords, EltTy.bits .f32 = 32 ∨ (Rect.block (s := S800768x128) S2048x128.size (cc5_transform_3 i) (hinb5_3 i)).WholeWords (EltTy.packing .f32)
  hrank6 : 0 < grid6.rank
  k6_t1_ok : k6_t1_loop.OK
  k6_mult1_dvd : ∀ k6_t1 : Fin k6_t1_loop.trips, 1024 ∣ (k6_mult1 k6_t1).toNat
  k6_off1_inb : ∀ k6_t1 : Fin k6_t1_loop.trips, ∀ a, (k6_off1 k6_t1) a + S1024x128.size a ≤ S50176x128.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S800768x128.size a
  hwx6_0 : ∀ i : grid6.Coords, EltTy.bits .f32 = 32 ∨ (Rect.block (s := S800768x128) S2048x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x2048.size a ≤ S1x800768.size a
  hwx6_1 : ∀ i : grid6.Coords, EltTy.bits .i32 = 32 ∨ (Rect.block (s := S1x800768) S1x2048.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S50176x128.size a ≤ S50176x128.size a
  hwx6_2 : ∀ i : grid6.Coords, EltTy.bits .f32 = 32 ∨ (Rect.block (s := S50176x128) S50176x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x128.size a ≤ S50176x128.size a
  hwx7_0 : ∀ i : grid7.Coords, EltTy.bits .f32 = 32 ∨ (Rect.block (s := S50176x128) S1024x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S50176x128.size a
  hwx7_1 : ∀ i : grid7.Coords, EltTy.bits .f32 = 32 ∨ (Rect.block (s := S50176x128) S1024x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1.size a ≤ S50176x1.size a
  hwx7_2 : ∀ i : grid7.Coords, EltTy.bits .f32 = 32 ∨ (Rect.block (s := S50176x1) S1024x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x128.size a ≤ S50176x128.size a
  hwx7_4 : ∀ i : grid7.Coords, EltTy.bits .f32 = 32 ∨ (Rect.block (s := S50176x128) S1024x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x128.size a ≤ S50176x128.size a
  hwx8_0 : ∀ i : grid8.Coords, EltTy.bits .f32 = 32 ∨ (Rect.block (s := S50176x128) S1024x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S50176x128.size a
  hwx8_2 : ∀ i : grid8.Coords, EltTy.bits .f32 = 32 ∨ (Rect.block (s := S50176x128) S1024x128.size (cc8_transform_2 i) (hinb8_2 i)).WholeWords (EltTy.packing .f32)
  hrank9 : 0 < grid9.rank
  k9_t1_ok : k9_t1_loop.OK
  k9_mult1_dvd : ∀ k9_t1 : Fin k9_t1_loop.trips, 1024 ∣ (k9_mult1 k9_t1).toNat
  k9_off1_inb : ∀ k9_t1 : Fin k9_t1_loop.trips, ∀ a, (k9_off1 k9_t1) a + S1024x128.size a ≤ S50176x128.size a
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S50176x128.size a ≤ S50176x128.size a
  hwx9_0 : ∀ i : grid9.Coords, EltTy.bits .f32 = 32 ∨ (Rect.block (s := S50176x128) S50176x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x1.size a ≤ S800768x1.size a
  hwx9_1 : ∀ i : grid9.Coords, EltTy.bits .i32 = 32 ∨ (Rect.block (s := S800768x1) S2048x1.size (cc9_transform_1 i) (hinb9_1 i)).WholeWords (EltTy.packing .i32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x1.size a ≤ S800768x1.size a
  hwx9_2 : ∀ i : grid9.Coords, EltTy.bits .f32 = 32 ∨ (Rect.block (s := S800768x1) S2048x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2048x128.size a ≤ S800768x128.size a
  hwx9_3 : ∀ i : grid9.Coords, EltTy.bits .f32 = 32 ∨ (Rect.block (s := S800768x128) S2048x128.size (cc9_transform_3 i) (hinb9_3 i)).WholeWords (EltTy.packing .f32)
  hrank10 : 0 < grid10.rank
  k10_t1_ok : k10_t1_loop.OK
  k10_mult1_dvd : ∀ k10_t1 : Fin k10_t1_loop.trips, 1024 ∣ (k10_mult1 k10_t1).toNat
  k10_off1_inb : ∀ k10_t1 : Fin k10_t1_loop.trips, ∀ a, (k10_off1 k10_t1) a + S1024x128.size a ≤ S50176x128.size a
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2048x128.size a ≤ S800768x128.size a
  hwx10_0 : ∀ i : grid10.Coords, EltTy.bits .f32 = 32 ∨ (Rect.block (s := S800768x128) S2048x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x2048.size a ≤ S1x800768.size a
  hwx10_1 : ∀ i : grid10.Coords, EltTy.bits .i32 = 32 ∨ (Rect.block (s := S1x800768) S1x2048.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S50176x128.size a ≤ S50176x128.size a
  hwx10_2 : ∀ i : grid10.Coords, EltTy.bits .f32 = 32 ∨ (Rect.block (s := S50176x128) S50176x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x128.size a ≤ S50176x128.size a
  hwx11_0 : ∀ i : grid11.Coords, EltTy.bits .f32 = 32 ∨ (Rect.block (s := S50176x128) S1024x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x128.size a ≤ S50176x128.size a
  hwx11_1 : ∀ i : grid11.Coords, EltTy.bits .f32 = 32 ∨ (Rect.block (s := S50176x128) S1024x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x1.size a ≤ S50176x1.size a
  hwx11_2 : ∀ i : grid11.Coords, EltTy.bits .f32 = 32 ∨ (Rect.block (s := S50176x1) S1024x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1024x128.size a ≤ S50176x128.size a
  hwx11_4 : ∀ i : grid11.Coords, EltTy.bits .f32 = 32 ∨ (Rect.block (s := S50176x128) S1024x128.size (cc11_transform_4 i) (hinb11_4 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S50176x128.size a ≤ S50176x128.size a
  hwx12_0 : ∀ i : grid12.Coords, EltTy.bits .f32 = 32 ∨ (Rect.block (s := S50176x128) S50176x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x50176.size a ≤ S1x50176.size a
  hwx12_1 : ∀ i : grid12.Coords, EltTy.bits .i32 = 32 ∨ (Rect.block (s := S1x50176) S1x50176.size (cc12_transform_1 i) (hinb12_1 i)).WholeWords (EltTy.packing .i32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x128.size a ≤ S64x128.size a
  hwx12_2 : ∀ i : grid12.Coords, EltTy.bits .f32 = 32 ∨ (Rect.block (s := S64x128) S64x128.size (cc12_transform_2 i) (hinb12_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S64x50176_S50176x128_S64x128_1_0_0_1_n_n : DotDims S64x50176 S50176x128 S64x128 where
  lhsContracting := [1]
  rhsContracting := [0]
  lhsNonContracting := [0]
  rhsNonContracting := [1]
  lhsBatch := []
  rhsBatch := []
  wf := dot_S64x50176_S50176x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v44) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S50176x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S50176x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S50176x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v31) S2048x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v51) S2048x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v51) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S1x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v52) S50176x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v52) S1024x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S1024x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v37) S1024x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v53) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v54) S1024x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v54) S1024x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v55) S1024x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v55) S50176x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v31) S2048x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v35) S2048x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v56) S2048x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v56) S2048x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v33) S1x2048.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v57) S50176x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v57) S1024x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v55) S1024x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v37) S1024x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v58) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v59) S1024x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v59) S50176x128.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_v39) S1x50176.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v60) S64x128.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S64x2 : Shape := ⟨2, ![64, 2]⟩
abbrev S1x2 : Shape := ⟨2, ![1, 2]⟩

abbrev nBuf : Space → Nat
  | .hbm => 225
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x1, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S50000, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S800000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S800000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x1, .f32⟩
  | 125 => ⟨S800000x128, .f32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000, .f32⟩
  | 4 => ⟨S50000x1, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .f32⟩
  | 78 => ⟨S50000, .f32⟩
  | 79 => ⟨S_, .f32⟩
  | 80 => ⟨S64, .f32⟩
  | 81 => ⟨S50000x1, .i32⟩
  | 82 => ⟨S64, .f32⟩
  | 83 => ⟨S_, .f32⟩
  | 84 => ⟨S64x128, .f32⟩
  | 85 => ⟨S50000x1, .i32⟩
  | 86 => ⟨S64x128, .f32⟩
  | 87 => ⟨S_, .f32⟩
  | 88 => ⟨S64, .f32⟩
  | 89 => ⟨S64, .f32⟩
  | 90 => ⟨S64x1, .f32⟩
  | 91 => ⟨S64x128, .f32⟩
  | 92 => ⟨S64x128, .f32⟩
  | 93 => ⟨S64x2, .f32⟩
  | 94 => ⟨S1x2, .f32⟩
  | 95 => ⟨S64x2, .f32⟩
  | 96 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_call3_cst : Ref sig .tc := ⟨.hbm, 139, rfl⟩
abbrev main_call3_v0 : Ref sig .tc := ⟨.hbm, 140, rfl⟩
abbrev main_v99 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_23 : Ref sig .tc := ⟨.hbm, 154, rfl⟩
abbrev main_call4_v0 : Ref sig .tc := ⟨.hbm, 155, rfl⟩
abbrev main_call4_v1 : Ref sig .tc := ⟨.hbm, 156, rfl⟩
abbrev main_v109 : Ref sig .tc := ⟨.hbm, 157, rfl⟩
abbrev main_c_24 : Ref sig .tc := ⟨.hbm, 158, rfl⟩
abbrev main_v110 : Ref sig .tc := ⟨.hbm, 159, rfl⟩
abbrev main_v111 : Ref sig .tc := ⟨.hbm, 160, rfl⟩
abbrev main_c_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_26 : Ref sig .tc := ⟨.hbm, 168, rfl⟩
abbrev main_v118 : Ref sig .tc := ⟨.hbm, 169, rfl⟩
abbrev main_v119 : Ref sig .tc := ⟨.hbm, 170, rfl⟩
abbrev main_c_27 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_28 : Ref sig .tc := ⟨.hbm, 178, rfl⟩
abbrev main_v126 : Ref sig .tc := ⟨.hbm, 179, rfl⟩
abbrev main_v127 : Ref sig .tc := ⟨.hbm, 180, rfl⟩
abbrev main_c_29 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_call5_cst : Ref sig .tc := ⟨.hbm, 202, rfl⟩
abbrev main_call5_v0 : Ref sig .tc := ⟨.hbm, 203, rfl⟩
abbrev main_v147 : Ref sig .tc := ⟨.hbm, 204, rfl⟩
abbrev main_cst_31 : Ref sig .tc := ⟨.hbm, 205, rfl⟩
abbrev main_v148 : Ref sig .tc := ⟨.hbm, 206, rfl⟩
abbrev main_cst_32 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_33 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_34 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x2_S64x2_1_0_0_1_n_n_wf : DotDims.WF S64x128 S128x2 S64x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.Spec.lean ====
import Idealize.ShloMosaic.PureOps.Ideal
import Idealize.ShloMosaic.Lib.ValueIdx

noncomputable section

namespace Cert.Gcn

open Idealize.ShloMosaic Idealize.ShloMosaic.ValueIdx

abbrev Sh2 (a b : Nat) : Shape := ⟨2, ![a, b]⟩

abbrev Sh1 (a : Nat) : Shape := ⟨1, ![a]⟩

abbrev row {a b : Nat} (i : (Sh2 a b).Idx) : Fin a := ⟨(i 0).val, idx2_lt0 i⟩

abbrev col {a b : Nat} (i : (Sh2 a b).Idx) : Fin b := ⟨(i 1).val, idx2_lt1 i⟩

theorem eq_ix2_row_col {a b : Nat} (i : (Sh2 a b).Idx) : i = ix2 (row i) (col i) := eq_ix2 i

def hot (a b : BitVec 32) : EReal := if a = b then 1 else 0

theorem hot_self (a : BitVec 32) : hot a a = 1 := if_pos rfl
theorem hot_ne {a b : BitVec 32} (h : a ≠ b) : hot a b = 0 := if_neg h

def denseK (x : (Sh2 50176 128).Idx → EReal) (w : (Sh2 128 128).Idx → EReal) : (Sh2 50176 128).Idx → EReal :=
  fun i => ∑ k : Fin 128, x (ix2 (row i) k) * w (ix2 k (col i))

def gatherK (h : (Sh2 50176 128).Idx → EReal) (src : (Sh2 800768 1).Idx → BitVec 32)
    (nrm : (Sh2 800768 1).Idx → EReal) : (Sh2 800768 128).Idx → EReal :=
  fun i => (∑ n : Fin 50176, hot (src (ix2 (row i) (0 : Fin 1))) (BitVec.ofNat 32 n.val) * h (ix2 n (col i)))
    * nrm (ix2 (row i) (0 : Fin 1))

def scatterK (msg : (Sh2 800768 128).Idx → EReal) (dst : (Sh2 1 800768).Idx → BitVec 32) :
    (Sh2 50176 128).Idx → EReal :=
  fun i => ∑ e : Fin 800768, hot (dst (ix2 (0 : Fin 1) e)) (BitVec.ofNat 32 (row i).val) * msg (ix2 e (col i))

def scatterBlk (msgblk : (Sh2 2048 128).Idx → EReal) (dstblk : (Sh2 1 2048).Idx → BitVec 32) : (Sh2 50176 128).Idx → EReal :=
  fun i => ∑ q : Fin 2048, hot (dstblk (ix2 (0 : Fin 1) q)) (BitVec.ofNat 32 (row i).val) * msgblk (ix2 q (col i))

def combineK (agg h : (Sh2 50176 128).Idx → EReal) (ss : (Sh2 50176 1).Idx → EReal)
    (b : (Sh2 1 128).Idx → EReal) : (Sh2 50176 128).Idx → EReal :=
  fun i => max (agg i + h i * ss (ix2 (row i) (0 : Fin 1)) + b (ix2 (0 : Fin 1) (col i))) 0

def poolK (h : (Sh2 50176 128).Idx → EReal) (batch : (Sh2 1 50176).Idx → BitVec 32) : (Sh2 64 128).Idx → EReal :=
  fun i => ∑ n : Fin 50176, hot (batch (ix2 (0 : Fin 1) n)) (BitVec.ofNat 32 (row i).val) * h (ix2 n (col i))

end Cert.Gcn

end
-- ==== Proof.SpecRef.lean ====
import proofs.«431307_j60284160967392_2_alg».proof.Proof.Spec

noncomputable section

namespace Cert.Gcn

open Idealize.ShloMosaic Idealize.ShloMosaic.ValueIdx

def padRowsF (x : (Sh2 50000 128).Idx → EReal) : (Sh2 50176 128).Idx → EReal :=
  fun i => if h : (row i).val < 50000 then x (ix2 ⟨(row i).val, h⟩ (col i)) else 0

def padColI (v : (Sh1 800000).Idx → BitVec 32) : (Sh2 800768 1).Idx → BitVec 32 :=
  fun i => if h : (row i).val < 800000 then v (ix1 ⟨(row i).val, h⟩) else 0#32

def padColF (v : (Sh1 800000).Idx → EReal) : (Sh2 800768 1).Idx → EReal :=
  fun i => if h : (row i).val < 800000 then v (ix1 ⟨(row i).val, h⟩) else 0

def padRowI (v : (Sh1 800000).Idx → BitVec 32) : (Sh2 1 800768).Idx → BitVec 32 :=
  fun i => if h : (col i).val < 800000 then v (ix1 ⟨(col i).val, h⟩) else 0#32

def padNodeColF (v : (Sh1 50000).Idx → EReal) : (Sh2 50176 1).Idx → EReal :=
  fun i => if h : (row i).val < 50000 then v (ix1 ⟨(row i).val, h⟩) else 0

def padBatch (v : (Sh1 50000).Idx → BitVec 32) : (Sh2 1 50176).Idx → BitVec 32 :=
  fun i => if h : (col i).val < 50000 then v (ix1 ⟨(col i).val, h⟩) else 64#32

def biasRow (b : (Sh1 128).Idx → EReal) : (Sh2 1 128).Idx → EReal := fun i => b (ix1 (col i))

def srcOf (ei : (Sh2 2 800000).Idx → BitVec 32) : (Sh1 800000).Idx → BitVec 32 :=
  fun i => ei (ix2 (0 : Fin 2) (⟨(i 0).val, (i 0).isLt⟩ : Fin 800000))

def dstOf (ei : (Sh2 2 800000).Idx → BitVec 32) : (Sh1 800000).Idx → BitVec 32 :=
  fun i => ei (ix2 (1 : Fin 2) (⟨(i 0).val, (i 0).isLt⟩ : Fin 800000))

def layerK (hin : (Sh2 50176 128).Idx → EReal) (w : (Sh2 128 128).Idx → EReal) (b : (Sh2 1 128).Idx → EReal)
    (src : (Sh2 800768 1).Idx → BitVec 32) (nrm : (Sh2 800768 1).Idx → EReal) (dst : (Sh2 1 800768).Idx → BitVec 32)
    (ss : (Sh2 50176 1).Idx → EReal) : (Sh2 50176 128).Idx → EReal :=
  combineK (scatterK (gatherK (denseK hin w) src nrm) dst) (denseK hin w) ss b

def netK (x : (Sh2 50176 128).Idx → EReal) (w1 : (Sh2 128 128).Idx → EReal) (b1 : (Sh2 1 128).Idx → EReal)
    (w2 : (Sh2 128 128).Idx → EReal) (b2 : (Sh2 1 128).Idx → EReal) (w3 : (Sh2 128 128).Idx → EReal) (b3 : (Sh2 1 128).Idx → EReal)
    (src : (Sh2 800768 1).Idx → BitVec 32) (nrm : (Sh2 800768 1).Idx → EReal) (dst : (Sh2 1 800768).Idx → BitVec 32)
    (ss : (Sh2 50176 1).Idx → EReal) (batch : (Sh2 1 50176).Idx → BitVec 32) : (Sh2 64 128).Idx → EReal :=
  poolK (layerK (layerK (layerK x w1 b1 src nrm dst ss) w2 b2 src nrm dst ss) w3 b3 src nrm dst ss) batch

def denseR (x : (Sh2 50000 128).Idx → EReal) (w : (Sh2 128 128).Idx → EReal) : (Sh2 50000 128).Idx → EReal :=
  fun i => ∑ k : Fin 128, x (ix2 (row i) k) * w (ix2 k (col i))

def msgR (h : (Sh2 50000 128).Idx → EReal) (gi : Fin 800000 → Fin 50000) (nrm : (Sh1 800000).Idx → EReal) :
    (Sh2 800000 128).Idx → EReal :=
  fun i => h (ix2 (gi (row i)) (col i)) * nrm (ix1 (row i))

def aggR (u : (Sh2 800000 128).Idx → EReal) (dst : (Sh1 800000).Idx → BitVec 32) : (Sh2 50000 128).Idx → EReal :=
  fun i => 0 + ∑ e : Fin 800000, if (dst (ix1 e)).toInt = ((row i).val : ℤ) then u (ix2 e (col i)) else 0

def combineR (a h : (Sh2 50000 128).Idx → EReal) (ss : (Sh1 50000).Idx → EReal) (b : (Sh1 128).Idx → EReal) :
    (Sh2 50000 128).Idx → EReal :=
  fun i => max (a i + h i * ss (ix1 (row i)) + b (ix1 (col i))) 0

def layerR (hin : (Sh2 50000 128).Idx → EReal) (w : (Sh2 128 128).Idx → EReal) (b : (Sh1 128).Idx → EReal)
    (gi : Fin 800000 → Fin 50000) (nrm : (Sh1 800000).Idx → EReal) (dst : (Sh1 800000).Idx → BitVec 32)
    (ss : (Sh1 50000).Idx → EReal) : (Sh2 50000 128).Idx → EReal :=
  combineR (aggR (msgR (denseR hin w) gi nrm) dst) (denseR hin w) ss b

def poolR (h : (Sh2 50000 128).Idx → EReal) (batch : (Sh1 50000).Idx → BitVec 32) : (Sh2 64 128).Idx → EReal :=
  fun i => 0 + ∑ n : Fin 50000, if (batch (ix1 n)).toInt = ((row i).val : ℤ) then h (ix2 n (col i)) else 0

def netR (x : (Sh2 50000 128).Idx → EReal) (w1 : (Sh2 128 128).Idx → EReal) (b1 : (Sh1 128).Idx → EReal)
    (w2 : (Sh2 128 128).Idx → EReal) (b2 : (Sh1 128).Idx → EReal) (w3 : (Sh2 128 128).Idx → EReal) (b3 : (Sh1 128).Idx → EReal)
    (gi : Fin 800000 → Fin 50000) (nrm : (Sh1 800000).Idx → EReal) (dst : (Sh1 800000).Idx → BitVec 32)
    (ss : (Sh1 50000).Idx → EReal) (batch : (Sh1 50000).Idx → BitVec 32) : (Sh2 64 128).Idx → EReal :=
  poolR (layerR (layerR (layerR x w1 b1 gi nrm dst ss) w2 b2 gi nrm dst ss) w3 b3 gi nrm dst ss) batch

end Cert.Gcn

end
-- ==== Proof.Carry.lean ====
import proofs.«431307_j60284160967392_2_alg».proof.Proof.Gen.KernelIdeal.Frame
import Idealize.ShloMosaic.Lib.StableHlo.Run

noncomputable section

namespace Cert.KernelIdeal.Gen

open Idealize.ShloMosaic Idealize.ShloMosaic.TcCoe
open Idealize.SL Idealize.SL.Sem

variable {F : FTy → Type} [FloatOps F]

/-- Stretches of host operations keep a buffer that none of them writes. -/
theorem foldl_after_keep {Ls : List (List (HloOp τ sig (Elt F)))} {Hs : List (List (Ref sig .tc))}
    (hW : List.Forall₂ (fun ops H => ops.Forall fun op => op.writes ⊆ (H.map (Proc.devRef (τ := τ) .tc)).toFinset) Ls Hs)
    (V : Valuation τ sig (Elt F)) (b : Ref sig .tc) (h : b ∉ Hs.flatten) :
    Ls.foldl (fun V ops => StableHlo.after ops V) V (Proc.devRef .tc b) = V (Proc.devRef .tc b) := by
  induction hW generalizing V with
  | nil => rfl
  | cons h₁ _ ih =>
    rw [List.flatten_cons, List.mem_append, not_or] at h
    exact (ih _ h.2).trans (StableHlo.after_of_writes_sub _ _ h₁ h.1)

/-- The stretches of host operations before the first region, in order. -/
def hostStretches : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13]

/-- The buffers each of them writes. -/
def hostWrites : List (List (Ref sig .tc)) :=
  [[main_v0, main_v1, main_v2, main_v3, main_cst, main_v4, main_v5, main_v6, main_cst_0, main_v7, main_v8, main_cst_1, main_v9, main_v10, main_v11, main_cst_2],
    [main_call0_v0, main_call0_v1, main_v12],
    [main_c, main_v13, main_v14, main_c_3, main_v15, main_v16, main_v17, main_v18, main_v19, main_v20, main_c_4, main_v21, main_v22, main_c_5, main_v23, main_v24, main_v25, main_v26, main_v27, main_v28, main_v29, main_v30, main_c_6],
    [main_call1_v0, main_v31],
    [main_v32, main_c_7],
    [main_call2_v0, main_v33],
    [main_v34, main_cst_8],
    [main_call3_v0, main_v35],
    [main_v36, main_cst_9],
    [main_call4_v0, main_v37],
    [main_v38, main_c_10],
    [main_call5_v0, main_v39],
    [main_cst_11, main_v40, main_cst_12, main_v41, main_v42, main_v43, main_cst_13],
    [main_call6_v0, main_v44]]

theorem hostWrites_ok : List.Forall₂ (fun ops H => ops.Forall fun op => op.writes ⊆ (H.map (Proc.devRef (τ := τ) .tc)).toFinset)
    (hostStretches (F := F)) hostWrites := by
  refine .cons ?_ <| .cons ?_ <| .cons ?_ <| .cons ?_ <| .cons ?_ <| .cons ?_ <| .cons ?_ <| .cons ?_ <| .cons ?_ <| .cons ?_ <|
    .cons ?_ <| .cons ?_ <| .cons ?_ <| .cons ?_ .nil
  all_goals
    simp only [List.Forall, StableHlo.nullary_writes, StableHlo.unary_writes, StableHlo.binary_writes, StableHlo.ternary_writes,
      StableHlo.reshape_writes, Finset.singleton_subset_iff, List.mem_toFinset]
    repeat' apply And.intro
    all_goals exact List.mem_map_of_mem (by decide)

/-- From stretch `i` on, `n` stretches keep a buffer that none of them writes. -/
theorem host_keep (i n : Nat) (V : Valuation τ sig (Elt F)) (b : Ref sig .tc) (h : b ∉ ((hostWrites.drop i).take n).flatten) :
    (((hostStretches (F := F)).drop i).take n).foldl (fun V ops => StableHlo.after ops V) V (Proc.devRef .tc b) = V (Proc.devRef .tc b) :=
  foldl_after_keep (List.forall₂_take n (List.forall₂_drop i hostWrites_ok)) V b h

/-- Putting back, at every array of a list, what the array already held changes nothing. -/
theorem withArrays_keep {gr W : Nat} (win : Fin W → Pipeline.WinSpec sig gr) (hinj : Function.Injective (Pipeline.arrRef win))
    (c : Dev nD) (V : Valuation τ sig (Elt F))
    (A : (w : Fin W) → Buf (Elt F) ((win w).arr.view.loc (c.tc : Thread nD τ))) (b : Ref sig .tc)
    (h : ∀ w, Pipeline.arrRef win w = b → A w = V (Proc.devRef .tc (Pipeline.arrRef win w))) :
    Pipeline.withArrays win c V A (Proc.devRef .tc b) = V (Proc.devRef .tc b) := by
  by_cases hb : ∀ w, Pipeline.arrRef win w ≠ b
  · exact Pipeline.withArrays_of_ne win c V A b hb
  · obtain ⟨w, rfl⟩ := not_forall_not.mp hb
    exact (Pipeline.withArrays_arr win hinj c V A w).trans (h w rfl)

variable (m : (ℓ : Loc nD τ sig) → Buf (Elt F) ℓ) (ρ : Dev nD → PrngReg)

theorem keep15 (c : Dev nD) (b : Ref sig .tc) (h : b ≠ main_v45) :
    W15 m ρ c (Proc.devRef .tc b) = W14 m ρ c (Proc.devRef .tc b) :=
  withArrays_keep spec0 launch0.win.arr_inj c _ _ b fun w e =>
    ((dat0 (V14 m ρ) c).arrAt_in w (((by decide : ∀ w : Fin 3, (cfg0.win w).isOut = false ∨ Pipeline.arrRef spec0 w = main_v45) w).resolve_right
      fun e' => h (e.symm.trans e')) _).trans (A_eq0 (V14 m ρ) c w)

theorem keep16 (c : Dev nD) (b : Ref sig .tc) (h : b ≠ main_v46) :
    W16 m ρ c (Proc.devRef .tc b) = W15 m ρ c (Proc.devRef .tc b) :=
  withArrays_keep spec1 launch1.win.arr_inj c _ _ b fun w e =>
    ((dat1 (V15 m ρ) c).arrAt_in w (((by decide : ∀ w : Fin 4, (cfg1.win w).isOut = false ∨ Pipeline.arrRef spec1 w = main_v46) w).resolve_right
      fun e' => h (e.symm.trans e')) _).trans (A_eq1 (V15 m ρ) c w)

theorem keep17 (c : Dev nD) (b : Ref sig .tc) (h : b ≠ main_v47) :
    W17 m ρ c (Proc.devRef .tc b) = W16 m ρ c (Proc.devRef .tc b) :=
  withArrays_keep spec2 launch2.win.arr_inj c _ _ b fun w e =>
    ((dat2 (V16 m ρ) c).arrAt_in w (((by decide : ∀ w : Fin 3, (cfg2.win w).isOut = false ∨ Pipeline.arrRef spec2 w = main_v47) w).resolve_right
      fun e' => h (e.symm.trans e')) _).trans (A_eq2 (V16 m ρ) c w)

theorem keep19 (c : Dev nD) (b : Ref sig .tc) (h : b ≠ main_v49) :
    W19 m ρ c (Proc.devRef .tc b) = W18 m ρ c (Proc.devRef .tc b) :=
  withArrays_keep spec3 launch3.win.arr_inj c _ _ b fun w e =>
    ((dat3 (V18 m ρ) c).arrAt_in w (((by decide : ∀ w : Fin 5, (cfg3.win w).isOut = false ∨ Pipeline.arrRef spec3 w = main_v49) w).resolve_right
      fun e' => h (e.symm.trans e')) _).trans (A_eq3 (V18 m ρ) c w)

theorem keep20 (c : Dev nD) (b : Ref sig .tc) (h : b ≠ main_v50) :
    W20 m ρ c (Proc.devRef .tc b) = W19 m ρ c (Proc.devRef .tc b) :=
  withArrays_keep spec4 launch4.win.arr_inj c _ _ b fun w e =>
    ((dat4 (V19 m ρ) c).arrAt_in w (((by decide : ∀ w : Fin 3, (cfg4.win w).isOut = false ∨ Pipeline.arrRef spec4 w = main_v50) w).resolve_right
      fun e' => h (e.symm.trans e')) _).trans (A_eq4 (V19 m ρ) c w)

theorem keep21 (c : Dev nD) (b : Ref sig .tc) (h : b ≠ main_v51) :
    W21 m ρ c (Proc.devRef .tc b) = W20 m ρ c (Proc.devRef .tc b) :=
  withArrays_keep spec5 launch5.win.arr_inj c _ _ b fun w e =>
    ((dat5 (V20 m ρ) c).arrAt_in w (((by decide : ∀ w : Fin 4, (cfg5.win w).isOut = false ∨ Pipeline.arrRef spec5 w = main_v51) w).resolve_right
      fun e' => h (e.symm.trans e')) _).trans (A_eq5 (V20 m ρ) c w)

theorem keep22 (c : Dev nD) (b : Ref sig .tc) (h : b ≠ main_v52) :
    W22 m ρ c (Proc.devRef .tc b) = W21 m ρ c (Proc.devRef .tc b) :=
  withArrays_keep spec6 launch6.win.arr_inj c _ _ b fun w e =>
    ((dat6 (V21 m ρ) c).arrAt_in w (((by decide : ∀ w : Fin 3, (cfg6.win w).isOut = false ∨ Pipeline.arrRef spec6 w = main_v52) w).resolve_right
      fun e' => h (e.symm.trans e')) _).trans (A_eq6 (V21 m ρ) c w)

theorem keep24 (c : Dev nD) (b : Ref sig .tc) (h : b ≠ main_v54) :
    W24 m ρ c (Proc.devRef .tc b) = W23 m ρ c (Proc.devRef .tc b) :=
  withArrays_keep spec7 launch7.win.arr_inj c _ _ b fun w e =>
    ((dat7 (V23 m ρ) c).arrAt_in w (((by decide : ∀ w : Fin 5, (cfg7.win w).isOut = false ∨ Pipeline.arrRef spec7 w = main_v54) w).resolve_right
      fun e' => h (e.symm.trans e')) _).trans (A_eq7 (V23 m ρ) c w)

theorem keep25 (c : Dev nD) (b : Ref sig .tc) (h : b ≠ main_v55) :
    W25 m ρ c (Proc.devRef .tc b) = W24 m ρ c (Proc.devRef .tc b) :=
  withArrays_keep spec8 launch8.win.arr_inj c _ _ b fun w e =>
    ((dat8 (V24 m ρ) c).arrAt_in w (((by decide : ∀ w : Fin 3, (cfg8.win w).isOut = false ∨ Pipeline.arrRef spec8 w = main_v55) w).resolve_right
      fun e' => h (e.symm.trans e')) _).trans (A_eq8 (V24 m ρ) c w)

theorem keep26 (c : Dev nD) (b : Ref sig .tc) (h : b ≠ main_v56) :
    W26 m ρ c (Proc.devRef .tc b) = W25 m ρ c (Proc.devRef .tc b) :=
  withArrays_keep spec9 launch9.win.arr_inj c _ _ b fun w e =>
    ((dat9 (V25 m ρ) c).arrAt_in w (((by decide : ∀ w : Fin 4, (cfg9.win w).isOut = false ∨ Pipeline.arrRef spec9 w = main_v56) w).resolve_right
      fun e' => h (e.symm.trans e')) _).trans (A_eq9 (V25 m ρ) c w)

theorem keep27 (c : Dev nD) (b : Ref sig .tc) (h : b ≠ main_v57) :
    W27 m ρ c (Proc.devRef .tc b) = W26 m ρ c (Proc.devRef .tc b) :=
  withArrays_keep spec10 launch10.win.arr_inj c _ _ b fun w e =>
    ((dat10 (V26 m ρ) c).arrAt_in w (((by decide : ∀ w : Fin 3, (cfg10.win w).isOut = false ∨ Pipeline.arrRef spec10 w = main_v57) w).resolve_right
      fun e' => h (e.symm.trans e')) _).trans (A_eq10 (V26 m ρ) c w)

theorem keep29 (c : Dev nD) (b : Ref sig .tc) (h : b ≠ main_v59) :
    W29 m ρ c (Proc.devRef .tc b) = W28 m ρ c (Proc.devRef .tc b) :=
  withArrays_keep spec11 launch11.win.arr_inj c _ _ b fun w e =>
    ((dat11 (V28 m ρ) c).arrAt_in w (((by decide : ∀ w : Fin 5, (cfg11.win w).isOut = false ∨ Pipeline.arrRef spec11 w = main_v59) w).resolve_right
      fun e' => h (e.symm.trans e')) _).trans (A_eq11 (V28 m ρ) c w)

theorem keep30 (c : Dev nD) (b : Ref sig .tc) (h : b ≠ main_v60) :
    W30 m ρ c (Proc.devRef .tc b) = W29 m ρ c (Proc.devRef .tc b) :=
  withArrays_keep spec12 launch12.win.arr_inj c _ _ b fun w e =>
    ((dat12 (V29 m ρ) c).arrAt_in w (((by decide : ∀ w : Fin 3, (cfg12.win w).isOut = false ∨ Pipeline.arrRef spec12 w = main_v60) w).resolve_right
      fun e' => h (e.symm.trans e')) _).trans (A_eq12 (V29 m ρ) c w)

theorem keep18 (c : Dev nD) (b : Ref sig .tc) (h : b ≠ main_v48) :
    W18 m ρ c (Proc.devRef .tc b) = W17 m ρ c (Proc.devRef .tc b) :=
  StableHlo.reshape_result_ne (h := h) ..

theorem keep23 (c : Dev nD) (b : Ref sig .tc) (h : b ≠ main_v53) :
    W23 m ρ c (Proc.devRef .tc b) = W22 m ρ c (Proc.devRef .tc b) :=
  StableHlo.reshape_result_ne (h := h) ..

theorem keep28 (c : Dev nD) (b : Ref sig .tc) (h : b ≠ main_v58) :
    W28 m ρ c (Proc.devRef .tc b) = W27 m ρ c (Proc.devRef .tc b) :=
  StableHlo.reshape_result_ne (h := h) ..

/-- The arrays that a region or a host operation after the first region writes. -/
abbrev LateW : List (Ref sig .tc) := [main_v45, main_v46, main_v47, main_v48, main_v49, main_v50, main_v51, main_v52, main_v53, main_v54, main_v55, main_v56, main_v57, main_v58, main_v59, main_v60]

theorem ne_of_not_mem {b x : Ref sig .tc} {L : List (Ref sig .tc)} (h : b ∉ L) (hx : x ∈ L) : b ≠ x :=
  fun e => h (e ▸ hx)

theorem late15 (c : Dev nD) (b : Ref sig .tc) (h : b ∉ LateW) :
    W15 m ρ c (Proc.devRef .tc b) = W14 m ρ c (Proc.devRef .tc b) :=
  keep15 m ρ c b (ne_of_not_mem h (by decide))

theorem late16 (c : Dev nD) (b : Ref sig .tc) (h : b ∉ LateW) :
    W16 m ρ c (Proc.devRef .tc b) = W14 m ρ c (Proc.devRef .tc b) :=
  (keep16 m ρ c b (ne_of_not_mem h (by decide))).trans (late15 m ρ c b h)

theorem late17 (c : Dev nD) (b : Ref sig .tc) (h : b ∉ LateW) :
    W17 m ρ c (Proc.devRef .tc b) = W14 m ρ c (Proc.devRef .tc b) :=
  (keep17 m ρ c b (ne_of_not_mem h (by decide))).trans (late16 m ρ c b h)

theorem late18 (c : Dev nD) (b : Ref sig .tc) (h : b ∉ LateW) :
    W18 m ρ c (Proc.devRef .tc b) = W14 m ρ c (Proc.devRef .tc b) :=
  (keep18 m ρ c b (ne_of_not_mem h (by decide))).trans (late17 m ρ c b h)

theorem late19 (c : Dev nD) (b : Ref sig .tc) (h : b ∉ LateW) :
    W19 m ρ c (Proc.devRef .tc b) = W14 m ρ c (Proc.devRef .tc b) :=
  (keep19 m ρ c b (ne_of_not_mem h (by decide))).trans (late18 m ρ c b h)

theorem late20 (c : Dev nD) (b : Ref sig .tc) (h : b ∉ LateW) :
    W20 m ρ c (Proc.devRef .tc b) = W14 m ρ c (Proc.devRef .tc b) :=
  (keep20 m ρ c b (ne_of_not_mem h (by decide))).trans (late19 m ρ c b h)

theorem late21 (c : Dev nD) (b : Ref sig .tc) (h : b ∉ LateW) :
    W21 m ρ c (Proc.devRef .tc b) = W14 m ρ c (Proc.devRef .tc b) :=
  (keep21 m ρ c b (ne_of_not_mem h (by decide))).trans (late20 m ρ c b h)

theorem late22 (c : Dev nD) (b : Ref sig .tc) (h : b ∉ LateW) :
    W22 m ρ c (Proc.devRef .tc b) = W14 m ρ c (Proc.devRef .tc b) :=
  (keep22 m ρ c b (ne_of_not_mem h (by decide))).trans (late21 m ρ c b h)

theorem late23 (c : Dev nD) (b : Ref sig .tc) (h : b ∉ LateW) :
    W23 m ρ c (Proc.devRef .tc b) = W14 m ρ c (Proc.devRef .tc b) :=
  (keep23 m ρ c b (ne_of_not_mem h (by decide))).trans (late22 m ρ c b h)

theorem late24 (c : Dev nD) (b : Ref sig .tc) (h : b ∉ LateW) :
    W24 m ρ c (Proc.devRef .tc b) = W14 m ρ c (Proc.devRef .tc b) :=
  (keep24 m ρ c b (ne_of_not_mem h (by decide))).trans (late23 m ρ c b h)

theorem late25 (c : Dev nD) (b : Ref sig .tc) (h : b ∉ LateW) :
    W25 m ρ c (Proc.devRef .tc b) = W14 m ρ c (Proc.devRef .tc b) :=
  (keep25 m ρ c b (ne_of_not_mem h (by decide))).trans (late24 m ρ c b h)

theorem late26 (c : Dev nD) (b : Ref sig .tc) (h : b ∉ LateW) :
    W26 m ρ c (Proc.devRef .tc b) = W14 m ρ c (Proc.devRef .tc b) :=
  (keep26 m ρ c b (ne_of_not_mem h (by decide))).trans (late25 m ρ c b h)

theorem late27 (c : Dev nD) (b : Ref sig .tc) (h : b ∉ LateW) :
    W27 m ρ c (Proc.devRef .tc b) = W14 m ρ c (Proc.devRef .tc b) :=
  (keep27 m ρ c b (ne_of_not_mem h (by decide))).trans (late26 m ρ c b h)

theorem late28 (c : Dev nD) (b : Ref sig .tc) (h : b ∉ LateW) :
    W28 m ρ c (Proc.devRef .tc b) = W14 m ρ c (Proc.devRef .tc b) :=
  (keep28 m ρ c b (ne_of_not_mem h (by decide))).trans (late27 m ρ c b h)

theorem late29 (c : Dev nD) (b : Ref sig .tc) (h : b ∉ LateW) :
    W29 m ρ c (Proc.devRef .tc b) = W14 m ρ c (Proc.devRef .tc b) :=
  (keep29 m ρ c b (ne_of_not_mem h (by decide))).trans (late28 m ρ c b h)

theorem late30 (c : Dev nD) (b : Ref sig .tc) (h : b ∉ LateW) :
    W30 m ρ c (Proc.devRef .tc b) = W14 m ρ c (Proc.devRef .tc b) :=
  (keep30 m ρ c b (ne_of_not_mem h (by decide))).trans (late29 m ρ c b h)

/-- An array that nothing writes holds at every region what it held at launch. -/
theorem arg_keep (c : Dev nD) (b : Ref sig .tc) (h : b ∉ hostWrites.flatten) : W14 m ρ c (Proc.devRef .tc b) = m ((c : Thread nD τ).loc b) :=
  host_keep 0 14 (W0 m ρ c) b h

end Cert.KernelIdeal.Gen

end
-- ==== Proof.KernelHostDefs.lean ====
import proofs.«431307_j60284160967392_2_alg».proof.Proof.Gen.KernelIdeal.Launch
import Idealize.ShloMosaic.Lib.StableHlo.Run
import Idealize.ShloMosaic.PureOps.Ideal

noncomputable section
namespace Cert.KernelIdeal.Gen
open Idealize.ShloMosaic Idealize.ShloMosaic.TcCoe Idealize.ShloMosaic.Tactic
open Idealize.SL Idealize.SL.Sem

def srcK (ei : IVec S2x800000 32) : IVec S800000 32 :=
  shapeCast S800000 (extractStridedSlice S1x800000 ![0, 0] ei slices_S2x800000_S1x800000_0_0) shapeCasts_S1x800000_S800000

def dstK (ei : IVec S2x800000 32) : IVec S800000 32 :=
  shapeCast S800000 (extractStridedSlice S1x800000 ![1, 0] ei slices_S2x800000_S1x800000_1_0) shapeCasts_S1x800000_S800000

def degK (dst : IVec S800000 32) (ew : FVec Ideal S800000 .f32) : FVec Ideal S50000 .f32 :=
  addf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 dst)
      ew)
    (broadcastInDim S50000 ![] bcast_S_S50000 (constant (F := Ideal) S_ .f32 0x3F800000#32))

def dinvK (ei : IVec S2x800000 32) (ew : FVec Ideal S800000 .f32) : FVec Ideal S50000 .f32 :=
  select
    (cmpf .ogt (degK (dstK ei) ew) (broadcastInDim S50000 ![] bcast_S_S50000 (constant (F := Ideal) S_ .f32 0x00000000#32)))
    (Host.rsqrt (degK (dstK ei) ew))
    (broadcastInDim S50000 ![] bcast_S_S50000 (constant (F := Ideal) S_ .f32 0x00000000#32))

def wrapK (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

def nrmK (ei : IVec S2x800000 32) (ew : FVec Ideal S800000 .f32) : FVec Ideal S800000 .f32 :=
  mulf
    (mulf
      (Host.gather gather_S50000_S800000x1_S800000_n_0_n_n_0_1_1 (dinvK ei ew)
        (broadcastInDim S800000x1 ![0] bcast_S800000_S800000x1_0 (wrapK (srcK ei))))
      ew)
    (Host.gather gather_S50000_S800000x1_S800000_n_0_n_n_0_1_1 (dinvK ei ew)
      (broadcastInDim S800000x1 ![0] bcast_S800000_S800000x1_0 (wrapK (dstK ei))))

def ssK (ei : IVec S2x800000 32) (ew : FVec Ideal S800000 .f32) : FVec Ideal S50000 .f32 :=
  mulf (dinvK ei ew) (dinvK ei ew)

def cntK (batch : IVec S50000 32) : FVec Ideal S64 .f32 :=
  Host.scatterAdd scatter_S64_S50000x1_S50000_n_0_0_1
    (broadcastInDim S64 ![] bcast_S_S64 (constant (F := Ideal) S_ .f32 0x00000000#32))
    (broadcastInDim S50000x1 ![0] bcast_S50000_S50000x1_0 batch)
    (broadcastInDim S50000 ![] bcast_S_S50000 (constant (F := Ideal) S_ .f32 0x3F800000#32))

def tailK (pooled : FVec Ideal S64x128 .f32) (cnt : FVec Ideal S64 .f32) (fcw : FVec Ideal S128x2 .f32)
    (fcb : FVec Ideal S2 .f32) : FVec Ideal S64x2 .f32 :=
  addf
    (Host.dotGeneral dot_S64x128_S128x2_S64x2_1_0_0_1_n_n none
      (Host.divf pooled
        (broadcastInDim S64x128 ![0, 1] bcast_S64x1_S64x128_0_1
          (broadcastInDim S64x1 ![0] bcast_S64_S64x1_0
            (maximumf cnt (broadcastInDim S64 ![] bcast_S_S64 (constant (F := Ideal) S_ .f32 0x3F800000#32))))))
      fcw)
    (broadcastInDim S64x2 ![0, 1] bcast_S1x2_S64x2_0_1 (broadcastInDim S1x2 ![1] bcast_S2_S1x2_1 fcb))

end Cert.KernelIdeal.Gen
end
-- ==== Proof.KernelHost.lean ====
import proofs.«431307_j60284160967392_2_alg».proof.Proof.SpecRef
import proofs.«431307_j60284160967392_2_alg».proof.Proof.Carry
import proofs.«431307_j60284160967392_2_alg».proof.Proof.KernelHostDefs
import proofs.«431307_j60284160967392_2_alg».proof.Proof.Gen.KernelIdeal.Frame
import Idealize.ShloMosaic.Lib.StableHlo.Run
import Idealize.ShloMosaic.Lib.KernelVsHost
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.TcCoe Idealize.ShloMosaic.Tactic Idealize.ShloMosaic.ValueIdx
open Idealize.SL Idealize.SL.Sem

variable (V : Valuation τ sig (Elt Ideal))

theorem s0_v1 :
    StableHlo.after (hostOps0 (F := Ideal)) V (Proc.devRef .tc main_v1)
      = srcK (V (Proc.devRef .tc main_arg1)) := by
  after_results <;> rfl

theorem s0_v3 :
    StableHlo.after (hostOps0 (F := Ideal)) V (Proc.devRef .tc main_v3)
      = dstK (V (Proc.devRef .tc main_arg1)) := by
  after_results <;> rfl

theorem s0_v10 :
    StableHlo.after (hostOps0 (F := Ideal)) V (Proc.devRef .tc main_v10)
      = (cmpf .ogt (degK (dstK (V (Proc.devRef .tc main_arg1))) (V (Proc.devRef .tc main_arg2))) (broadcastInDim S50000 ![] bcast_S_S50000 (constant (F := Ideal) S_ .f32 0x00000000#32)) : IVec S50000 1) := by
  after_results <;> rfl

theorem s0_v11 :
    StableHlo.after (hostOps0 (F := Ideal)) V (Proc.devRef .tc main_v11)
      = (Host.rsqrt (degK (dstK (V (Proc.devRef .tc main_arg1))) (V (Proc.devRef .tc main_arg2))) : FVec Ideal S50000 .f32) := by
  after_results <;> rfl

theorem s0_cst2 :
    StableHlo.after (hostOps0 (F := Ideal)) V (Proc.devRef .tc main_cst_2)
      = ((constant (F := Ideal) S_ .f32 0x00000000#32) : FVec Ideal S_ .f32) := by
  after_results <;> rfl

theorem s1_v12 :
    StableHlo.after (hostOps0_1 (F := Ideal)) V (Proc.devRef .tc main_v12)
      = (select ((V (Proc.devRef .tc main_v10)) : IVec S50000 1) ((V (Proc.devRef .tc main_v11)) : FVec Ideal S50000 .f32) (broadcastInDim S50000 ![] bcast_S_S50000 ((V (Proc.devRef .tc main_cst_2)) : FVec Ideal S_ .f32)) : FVec Ideal S50000 .f32) := by
  after_results <;> (try simp only [StableHlo.TRef.ofBuf, StableHlo.TRef.toBuf, cast_eq, id]) <;> rfl

theorem s2_v28 :
    StableHlo.after (hostOps0_2 (F := Ideal)) V (Proc.devRef .tc main_v28)
      = (mulf (mulf (Host.gather gather_S50000_S800000x1_S800000_n_0_n_n_0_1_1 ((V (Proc.devRef .tc main_v12)) : FVec Ideal S50000 .f32) (broadcastInDim S800000x1 ![0] bcast_S800000_S800000x1_0 (wrapK (V (Proc.devRef .tc main_v1))))) ((V (Proc.devRef .tc main_arg2)) : FVec Ideal S800000 .f32)) (Host.gather gather_S50000_S800000x1_S800000_n_0_n_n_0_1_1 ((V (Proc.devRef .tc main_v12)) : FVec Ideal S50000 .f32) (broadcastInDim S800000x1 ![0] bcast_S800000_S800000x1_0 (wrapK (V (Proc.devRef .tc main_v3))))) : FVec Ideal S800000 .f32) := by
  after_results_simp <;> rfl

theorem s2_v29 :
    StableHlo.after (hostOps0_2 (F := Ideal)) V (Proc.devRef .tc main_v29)
      = (mulf ((V (Proc.devRef .tc main_v12)) : FVec Ideal S50000 .f32) (V (Proc.devRef .tc main_v12)) : FVec Ideal S50000 .f32) := by
  after_results <;> rfl

theorem s2_v30 :
    StableHlo.after (hostOps0_2 (F := Ideal)) V (Proc.devRef .tc main_v30)
      = (shapeCast S800000x1 ((V (Proc.devRef .tc main_v1)) : IVec S800000 32) shapeCasts_S800000_S800000x1 : IVec S800000x1 32) := by
  after_results <;> rfl

theorem s2_c6 :
    StableHlo.after (hostOps0_2 (F := Ideal)) V (Proc.devRef .tc main_c_6)
      = (constantI S_ 32 0#32 : IVec S_ 32) := by
  after_results <;> rfl

theorem s3_v31 :
    StableHlo.after (hostOps0_3 (F := Ideal)) V (Proc.devRef .tc main_v31)
      = (pad S800768x1 ![0, 0] ![768, 0] ![0, 0] ((V (Proc.devRef .tc main_v30)) : IVec S800000x1 32) ((V (Proc.devRef .tc main_c_6)) : IVec S_ 32) pads_S800000x1_S800768x1_07680_000 h_S_ : IVec S800768x1 32) := by
  after_results <;> (try simp only [StableHlo.TRef.ofBuf, StableHlo.TRef.toBuf, cast_eq, id]) <;> rfl

theorem s4_v32 :
    StableHlo.after (hostOps0_4 (F := Ideal)) V (Proc.devRef .tc main_v32)
      = (shapeCast S1x800000 ((V (Proc.devRef .tc main_v3)) : IVec S800000 32) shapeCasts_S800000_S1x800000 : IVec S1x800000 32) := by
  after_results <;> rfl

theorem s4_c7 :
    StableHlo.after (hostOps0_4 (F := Ideal)) V (Proc.devRef .tc main_c_7)
      = (constantI S_ 32 0#32 : IVec S_ 32) := by
  after_results <;> rfl

theorem s5_v33 :
    StableHlo.after (hostOps0_5 (F := Ideal)) V (Proc.devRef .tc main_v33)
      = (pad S1x800768 ![0, 0] ![0, 768] ![0, 0] ((V (Proc.devRef .tc main_v32)) : IVec S1x800000 32) ((V (Proc.devRef .tc main_c_7)) : IVec S_ 32) pads_S1x800000_S1x800768_000_07680 h_S_ : IVec S1x800768 32) := by
  after_results <;> (try simp only [StableHlo.TRef.ofBuf, StableHlo.TRef.toBuf, cast_eq, id]) <;> rfl

theorem s6_v34 :
    StableHlo.after (hostOps0_6 (F := Ideal)) V (Proc.devRef .tc main_v34)
      = (shapeCast S800000x1 ((V (Proc.devRef .tc main_v28)) : FVec Ideal S800000 .f32) shapeCasts_S800000_S800000x1 : FVec Ideal S800000x1 .f32) := by
  after_results <;> rfl

theorem s6_cst8 :
    StableHlo.after (hostOps0_6 (F := Ideal)) V (Proc.devRef .tc main_cst_8)
      = ((constant (F := Ideal) S_ .f32 0x00000000#32) : FVec Ideal S_ .f32) := by
  after_results <;> rfl

theorem s7_v35 :
    StableHlo.after (hostOps0_7 (F := Ideal)) V (Proc.devRef .tc main_v35)
      = (pad S800768x1 ![0, 0] ![768, 0] ![0, 0] ((V (Proc.devRef .tc main_v34)) : FVec Ideal S800000x1 .f32) ((V (Proc.devRef .tc main_cst_8)) : FVec Ideal S_ .f32) pads_S800000x1_S800768x1_07680_000 h_S_ : FVec Ideal S800768x1 .f32) := by
  after_results <;> (try simp only [StableHlo.TRef.ofBuf, StableHlo.TRef.toBuf, cast_eq, id]) <;> rfl

theorem s8_v36 :
    StableHlo.after (hostOps0_8 (F := Ideal)) V (Proc.devRef .tc main_v36)
      = (shapeCast S50000x1 ((V (Proc.devRef .tc main_v29)) : FVec Ideal S50000 .f32) shapeCasts_S50000_S50000x1 : FVec Ideal S50000x1 .f32) := by
  after_results <;> rfl

theorem s8_cst9 :
    StableHlo.after (hostOps0_8 (F := Ideal)) V (Proc.devRef .tc main_cst_9)
      = ((constant (F := Ideal) S_ .f32 0x00000000#32) : FVec Ideal S_ .f32) := by
  after_results <;> rfl

theorem s9_v37 :
    StableHlo.after (hostOps0_9 (F := Ideal)) V (Proc.devRef .tc main_v37)
      = (pad S50176x1 ![0, 0] ![176, 0] ![0, 0] ((V (Proc.devRef .tc main_v36)) : FVec Ideal S50000x1 .f32) ((V (Proc.devRef .tc main_cst_9)) : FVec Ideal S_ .f32) pads_S50000x1_S50176x1_01760_000 h_S_ : FVec Ideal S50176x1 .f32) := by
  after_results <;> (try simp only [StableHlo.TRef.ofBuf, StableHlo.TRef.toBuf, cast_eq, id]) <;> rfl

theorem s10_v38 :
    StableHlo.after (hostOps0_10 (F := Ideal)) V (Proc.devRef .tc main_v38)
      = (shapeCast S1x50000 ((V (Proc.devRef .tc main_arg3)) : IVec S50000 32) shapeCasts_S50000_S1x50000 : IVec S1x50000 32) := by
  after_results <;> rfl

theorem s10_c10 :
    StableHlo.after (hostOps0_10 (F := Ideal)) V (Proc.devRef .tc main_c_10)
      = (constantI S_ 32 64#32 : IVec S_ 32) := by
  after_results <;> rfl

theorem s11_v39 :
    StableHlo.after (hostOps0_11 (F := Ideal)) V (Proc.devRef .tc main_v39)
      = (pad S1x50176 ![0, 0] ![0, 176] ![0, 0] ((V (Proc.devRef .tc main_v38)) : IVec S1x50000 32) ((V (Proc.devRef .tc main_c_10)) : IVec S_ 32) pads_S1x50000_S1x50176_000_01760 h_S_ : IVec S1x50176 32) := by
  after_results <;> (try simp only [StableHlo.TRef.ofBuf, StableHlo.TRef.toBuf, cast_eq, id]) <;> rfl

theorem s12_v43 :
    StableHlo.after (hostOps0_12 (F := Ideal)) V (Proc.devRef .tc main_v43)
      = cntK (V (Proc.devRef .tc main_arg3)) := by
  after_results <;> rfl

theorem s12_cst13 :
    StableHlo.after (hostOps0_12 (F := Ideal)) V (Proc.devRef .tc main_cst_13)
      = ((constant (F := Ideal) S_ .f32 0x00000000#32) : FVec Ideal S_ .f32) := by
  after_results <;> rfl

theorem s13_v44 :
    StableHlo.after (hostOps0_13 (F := Ideal)) V (Proc.devRef .tc main_v44)
      = (pad S50176x128 ![0, 0] ![176, 0] ![0, 0] ((V (Proc.devRef .tc main_arg0)) : FVec Ideal S50000x128 .f32) ((V (Proc.devRef .tc main_cst_13)) : FVec Ideal S_ .f32) pads_S50000x128_S50176x128_01760_000 h_S_ : FVec Ideal S50176x128 .f32) := by
  after_results <;> (try simp only [StableHlo.TRef.ofBuf, StableHlo.TRef.toBuf, cast_eq, id]) <;> rfl

theorem t_v69 :
    StableHlo.after (hostOps13 (F := Ideal)) V (Proc.devRef .tc main_v69)
      = tailK (V (Proc.devRef .tc main_v60)) (V (Proc.devRef .tc main_v43)) (V (Proc.devRef .tc main_arg10)) (V (Proc.devRef .tc main_arg11)) := by
  after_results_simp <;> rfl

theorem srcK_apply (ei : IVec S2x800000 32) (e : Fin 800000) : srcK ei (ix1 e) = ei (ix2 (0 : Fin 2) e) := by
  unfold srcK
  rw [shapeCast_apply _ shapeCasts_S1x800000_S800000 (ix1 e) (ix2 (0 : Fin 1) e) (by
        rw [Shape.rowMajor_val_two, Shape.rowMajor_val_one]
        show 0 * 800000 + e.val = e.val; omega)]
  exact extractStridedSlice_apply ![0, 0] ei slices_S2x800000_S1x800000_0_0 (ix2 (0 : Fin 1) e) (ix2 (0 : Fin 2) e)
    (fun a => match a with
      | ⟨0, _⟩ => by show 0 = 0 + 0; omega
      | ⟨1, _⟩ => by show e.val = 0 + e.val; omega)

theorem dstK_apply (ei : IVec S2x800000 32) (e : Fin 800000) : dstK ei (ix1 e) = ei (ix2 (1 : Fin 2) e) := by
  unfold dstK
  rw [shapeCast_apply _ shapeCasts_S1x800000_S800000 (ix1 e) (ix2 (0 : Fin 1) e) (by
        rw [Shape.rowMajor_val_two, Shape.rowMajor_val_one]
        show 0 * 800000 + e.val = e.val; omega)]
  exact extractStridedSlice_apply ![1, 0] ei slices_S2x800000_S1x800000_1_0 (ix2 (0 : Fin 1) e) (ix2 (1 : Fin 2) e)
    (fun a => match a with
      | ⟨0, _⟩ => by show 1 = 1 + 0; omega
      | ⟨1, _⟩ => by show e.val = 0 + e.val; omega)

theorem srcK_eq (ei : IVec S2x800000 32) : srcK ei = Cert.Gcn.srcOf ei := by
  funext j
  have hj : j = ix1 (⟨(j 0).val, (j 0).isLt⟩ : Fin 800000) := funext fun d => match d with | ⟨0, _⟩ => rfl
  calc srcK ei j = srcK ei (ix1 (⟨(j 0).val, (j 0).isLt⟩ : Fin 800000)) := congrArg (srcK ei) hj
    _ = ei (ix2 (0 : Fin 2) (⟨(j 0).val, (j 0).isLt⟩ : Fin 800000)) := srcK_apply ei _
    _ = Cert.Gcn.srcOf ei j := rfl

theorem dstK_eq (ei : IVec S2x800000 32) : dstK ei = Cert.Gcn.dstOf ei := by
  funext j
  have hj : j = ix1 (⟨(j 0).val, (j 0).isLt⟩ : Fin 800000) := funext fun d => match d with | ⟨0, _⟩ => rfl
  calc dstK ei j = dstK ei (ix1 (⟨(j 0).val, (j 0).isLt⟩ : Fin 800000)) := congrArg (dstK ei) hj
    _ = ei (ix2 (1 : Fin 2) (⟨(j 0).val, (j 0).isLt⟩ : Fin 800000)) := dstK_apply ei _
    _ = Cert.Gcn.dstOf ei j := rfl

theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    rw [Shape.rowMajor_val_one, Shape.rowMajor_val_two]
    show r.val = r.val * 1 + u.val; omega)

theorem pad_below_apply {α : Type} {n N k d : ℕ} (x : (Cert.Gcn.Sh2 n k).Idx → α) {u : Shape} (v : u.Idx → α)
    (hp : (Cert.Gcn.Sh2 n k).Pads ![0, 0] ![d, 0] ![0, 0] (Cert.Gcn.Sh2 N k)) (hu : 0 < u.numel) (i : (Cert.Gcn.Sh2 N k).Idx) :
    pad (Cert.Gcn.Sh2 N k) ![0, 0] ![d, 0] ![0, 0] x v hp hu i
      = if h : (i 0).val < n then x (ix2 ⟨(i 0).val, h⟩ (Cert.Gcn.col i)) else v (Shape.Idx.first hu) := by
  by_cases h : (i 0).val < n
  · rw [dif_pos h]
    exact pad_apply_of_inside _ _ _ x v hp hu i _ (fun a => match a with
      | ⟨0, _⟩ => by show (i 0).val = 0 + (i 0).val * (0 + 1); omega
      | ⟨1, _⟩ => by show (i 1).val = 0 + (i 1).val * (0 + 1); omega)
  · rw [dif_neg h]
    exact pad_apply_of_not_inside _ _ _ x v hp hu i (0 : Fin 2)
      (by show ¬(0 ≤ (i 0).val ∧ ((i 0).val - 0) % (0 + 1) = 0 ∧ ((i 0).val - 0) / (0 + 1) < n); omega)

theorem pad_right_apply {α : Type} {n N d : ℕ} (x : (Cert.Gcn.Sh2 1 n).Idx → α) {u : Shape} (v : u.Idx → α)
    (hp : (Cert.Gcn.Sh2 1 n).Pads ![0, 0] ![0, d] ![0, 0] (Cert.Gcn.Sh2 1 N)) (hu : 0 < u.numel) (i : (Cert.Gcn.Sh2 1 N).Idx) :
    pad (Cert.Gcn.Sh2 1 N) ![0, 0] ![0, d] ![0, 0] x v hp hu i
      = if h : (i 1).val < n then x (ix2 (0 : Fin 1) ⟨(i 1).val, h⟩) else v (Shape.Idx.first hu) := by
  have h0 := idx2_lt0 i
  by_cases h : (i 1).val < n
  · rw [dif_pos h]
    exact pad_apply_of_inside _ _ _ x v hp hu i _ (fun a => match a with
      | ⟨0, _⟩ => by show (i 0).val = 0 + 0 * (0 + 1); omega
      | ⟨1, _⟩ => by show (i 1).val = 0 + (i 1).val * (0 + 1); omega)
  · rw [dif_neg h]
    exact pad_apply_of_not_inside _ _ _ x v hp hu i (1 : Fin 2)
      (by show ¬(0 ≤ (i 1).val ∧ ((i 1).val - 0) % (0 + 1) = 0 ∧ ((i 1).val - 0) / (0 + 1) < n); omega)

theorem zeroF_apply (j : S_.Idx) : (constant (F := Ideal) S_ .f32 0x00000000#32 : FVec Ideal S_ .f32) j = (0 : EReal) :=
  Idealize.ShloMosaic.Ideal.ofBits_zero_f32

theorem pad_colI_eq (v : IVec S800000 32) :
    (pad S800768x1 ![0, 0] ![768, 0] ![0, 0] (shapeCast S800000x1 v shapeCasts_S800000_S800000x1) (constantI S_ 32 0#32) pads_S800000x1_S800768x1_07680_000 h_S_) = Cert.Gcn.padColI v := by
  funext i
  refine (pad_below_apply _ _ _ _ i).trans ?_
  unfold Cert.Gcn.padColI
  split
  · exact shapeCast_a_a1_apply v _ _ _
  · rfl

theorem pad_colF_eq (v : FVec Ideal S800000 .f32) :
    (pad S800768x1 ![0, 0] ![768, 0] ![0, 0] (shapeCast S800000x1 v shapeCasts_S800000_S800000x1) (constant (F := Ideal) S_ .f32 0x00000000#32) pads_S800000x1_S800768x1_07680_000 h_S_) = Cert.Gcn.padColF v := by
  funext i
  refine (pad_below_apply _ _ _ _ i).trans ?_
  unfold Cert.Gcn.padColF
  split
  · exact shapeCast_a_a1_apply v _ _ _
  · exact zeroF_apply _

theorem pad_nodeColF_eq (v : FVec Ideal S50000 .f32) :
    (pad S50176x1 ![0, 0] ![176, 0] ![0, 0] (shapeCast S50000x1 v shapeCasts_S50000_S50000x1) (constant (F := Ideal) S_ .f32 0x00000000#32) pads_S50000x1_S50176x1_01760_000 h_S_) = Cert.Gcn.padNodeColF v := by
  funext i
  refine (pad_below_apply _ _ _ _ i).trans ?_
  unfold Cert.Gcn.padNodeColF
  split
  · exact shapeCast_a_a1_apply v _ _ _
  · exact zeroF_apply _

theorem pad_rowI_eq (v : IVec S800000 32) :
    (pad S1x800768 ![0, 0] ![0, 768] ![0, 0] (shapeCast S1x800000 v shapeCasts_S800000_S1x800000) (constantI S_ 32 0#32) pads_S1x800000_S1x800768_000_07680 h_S_) = Cert.Gcn.padRowI v := by
  funext i
  refine (pad_right_apply _ _ _ _ i).trans ?_
  unfold Cert.Gcn.padRowI
  split
  · exact shapeCast_a_1a_apply v _ _ _
  · rfl

theorem pad_batch_eq (v : IVec S50000 32) :
    (pad S1x50176 ![0, 0] ![0, 176] ![0, 0] (shapeCast S1x50000 v shapeCasts_S50000_S1x50000) (constantI S_ 32 64#32) pads_S1x50000_S1x50176_000_01760 h_S_) = Cert.Gcn.padBatch v := by
  funext i
  refine (pad_right_apply _ _ _ _ i).trans ?_
  unfold Cert.Gcn.padBatch
  split
  · exact shapeCast_a_1a_apply v _ _ _
  · rfl

theorem pad_rows_eq (x : FVec Ideal S50000x128 .f32) :
    (pad S50176x128 ![0, 0] ![176, 0] ![0, 0] x (constant (F := Ideal) S_ .f32 0x00000000#32)
      pads_S50000x128_S50176x128_01760_000 h_S_ : FVec Ideal S50176x128 .f32) = Cert.Gcn.padRowsF x := by
  funext i
  refine (pad_below_apply _ _ _ _ i).trans ?_
  unfold Cert.Gcn.padRowsF
  split
  · rfl
  · exact zeroF_apply _

variable (m : (ℓ : Loc nD τ sig) → Buf (Elt Ideal) ℓ) (ρ : Dev nD → PrngReg) (c : Dev nD)

theorem W2_arg2 : W2 m ρ c (Proc.devRef .tc main_arg2) = (m ((c : Thread nD τ).loc main_arg2)) :=
  host_keep 0 2 (W0 m ρ c) main_arg2 (by decide)

theorem W10_arg3 : W10 m ρ c (Proc.devRef .tc main_arg3) = (m ((c : Thread nD τ).loc main_arg3)) :=
  host_keep 0 10 (W0 m ρ c) main_arg3 (by decide)

theorem W12_arg3 : W12 m ρ c (Proc.devRef .tc main_arg3) = (m ((c : Thread nD τ).loc main_arg3)) :=
  host_keep 0 12 (W0 m ρ c) main_arg3 (by decide)

theorem W13_arg0 : W13 m ρ c (Proc.devRef .tc main_arg0) = (m ((c : Thread nD τ).loc main_arg0)) :=
  host_keep 0 13 (W0 m ρ c) main_arg0 (by decide)

theorem W2_v12 : W2 m ρ c (Proc.devRef .tc main_v12) = dinvK (m ((c : Thread nD τ).loc main_arg1)) (m ((c : Thread nD τ).loc main_arg2)) :=
  (s1_v12 (W1 m ρ c)).trans (by
    rw [show W1 m ρ c (Proc.devRef .tc main_v10) = _ from s0_v10 (W0 m ρ c), show W1 m ρ c (Proc.devRef .tc main_v11) = _ from s0_v11 (W0 m ρ c),
      show W1 m ρ c (Proc.devRef .tc main_cst_2) = _ from s0_cst2 (W0 m ρ c)]; rfl)

theorem W2_v1 : W2 m ρ c (Proc.devRef .tc main_v1) = srcK (m ((c : Thread nD τ).loc main_arg1)) :=
  (host_keep 1 1 (W1 m ρ c) main_v1 (by decide)).trans (s0_v1 (W0 m ρ c))

theorem W2_v3 : W2 m ρ c (Proc.devRef .tc main_v3) = dstK (m ((c : Thread nD τ).loc main_arg1)) :=
  (host_keep 1 1 (W1 m ρ c) main_v3 (by decide)).trans (s0_v3 (W0 m ρ c))

theorem W4_v3 : W4 m ρ c (Proc.devRef .tc main_v3) = dstK (m ((c : Thread nD τ).loc main_arg1)) :=
  (host_keep 1 3 (W1 m ρ c) main_v3 (by decide)).trans (s0_v3 (W0 m ρ c))

theorem W3_v28 : W3 m ρ c (Proc.devRef .tc main_v28) = nrmK (m ((c : Thread nD τ).loc main_arg1)) (m ((c : Thread nD τ).loc main_arg2)) :=
  (s2_v28 (W2 m ρ c)).trans (by rw [W2_v12 m ρ c, W2_v1 m ρ c, W2_v3 m ρ c, W2_arg2 m ρ c]; rfl)

theorem W3_v29 : W3 m ρ c (Proc.devRef .tc main_v29) = ssK (m ((c : Thread nD τ).loc main_arg1)) (m ((c : Thread nD τ).loc main_arg2)) :=
  (s2_v29 (W2 m ρ c)).trans (by rw [W2_v12 m ρ c]; rfl)

theorem v44_eq : W14 m ρ c (Proc.devRef .tc main_v44) = Cert.Gcn.padRowsF (m ((c : Thread nD τ).loc main_arg0)) :=
  (s13_v44 (W13 m ρ c)).trans (by
    rw [W13_arg0 m ρ c, show W13 m ρ c (Proc.devRef .tc main_cst_13) = _ from s12_cst13 (W12 m ρ c), pad_rows_eq])

theorem v31_eq : W14 m ρ c (Proc.devRef .tc main_v31) = Cert.Gcn.padColI (Cert.Gcn.srcOf (m ((c : Thread nD τ).loc main_arg1))) :=
  (host_keep 4 10 (W4 m ρ c) main_v31 (by decide)).trans ((s3_v31 (W3 m ρ c)).trans (by
    rw [show W3 m ρ c (Proc.devRef .tc main_v30) = _ from s2_v30 (W2 m ρ c), show W3 m ρ c (Proc.devRef .tc main_c_6) = _ from s2_c6 (W2 m ρ c),
      W2_v1 m ρ c, pad_colI_eq, srcK_eq]))

theorem v33_eq : W14 m ρ c (Proc.devRef .tc main_v33) = Cert.Gcn.padRowI (Cert.Gcn.dstOf (m ((c : Thread nD τ).loc main_arg1))) :=
  (host_keep 6 8 (W6 m ρ c) main_v33 (by decide)).trans ((s5_v33 (W5 m ρ c)).trans (by
    rw [show W5 m ρ c (Proc.devRef .tc main_v32) = _ from s4_v32 (W4 m ρ c), show W5 m ρ c (Proc.devRef .tc main_c_7) = _ from s4_c7 (W4 m ρ c),
      W4_v3 m ρ c, pad_rowI_eq, dstK_eq]))

theorem v35_eq : W14 m ρ c (Proc.devRef .tc main_v35) = Cert.Gcn.padColF (nrmK (m ((c : Thread nD τ).loc main_arg1)) (m ((c : Thread nD τ).loc main_arg2))) :=
  (host_keep 8 6 (W8 m ρ c) main_v35 (by decide)).trans ((s7_v35 (W7 m ρ c)).trans (by
    rw [show W7 m ρ c (Proc.devRef .tc main_v34) = _ from s6_v34 (W6 m ρ c), show W7 m ρ c (Proc.devRef .tc main_cst_8) = _ from s6_cst8 (W6 m ρ c),
      show W6 m ρ c (Proc.devRef .tc main_v28) = _ from (host_keep 3 3 (W3 m ρ c) main_v28 (by decide)).trans (W3_v28 m ρ c), pad_colF_eq]))

theorem v37_eq : W14 m ρ c (Proc.devRef .tc main_v37) = Cert.Gcn.padNodeColF (ssK (m ((c : Thread nD τ).loc main_arg1)) (m ((c : Thread nD τ).loc main_arg2))) :=
  (host_keep 10 4 (W10 m ρ c) main_v37 (by decide)).trans ((s9_v37 (W9 m ρ c)).trans (by
    rw [show W9 m ρ c (Proc.devRef .tc main_v36) = _ from s8_v36 (W8 m ρ c), show W9 m ρ c (Proc.devRef .tc main_cst_9) = _ from s8_cst9 (W8 m ρ c),
      show W8 m ρ c (Proc.devRef .tc main_v29) = _ from (host_keep 3 5 (W3 m ρ c) main_v29 (by decide)).trans (W3_v29 m ρ c), pad_nodeColF_eq]))

theorem v39_eq : W14 m ρ c (Proc.devRef .tc main_v39) = Cert.Gcn.padBatch (m ((c : Thread nD τ).loc main_arg3)) :=
  (host_keep 12 2 (W12 m ρ c) main_v39 (by decide)).trans ((s11_v39 (W11 m ρ c)).trans (by
    rw [show W11 m ρ c (Proc.devRef .tc main_v38) = _ from s10_v38 (W10 m ρ c), show W11 m ρ c (Proc.devRef .tc main_c_10) = _ from s10_c10 (W10 m ρ c),
      W10_arg3 m ρ c, pad_batch_eq]))

theorem v43_eq : W14 m ρ c (Proc.devRef .tc main_v43) = cntK (m ((c : Thread nD τ).loc main_arg3)) :=
  (host_keep 13 1 (W13 m ρ c) main_v43 (by decide)).trans ((s12_v43 (W12 m ρ c)).trans (by rw [W12_arg3 m ρ c]))

theorem result_eq : W31 m ρ c (Proc.devRef .tc main_v69)
    = tailK (W30 m ρ c (Proc.devRef .tc main_v60)) (cntK (m ((c : Thread nD τ).loc main_arg3))) (m ((c : Thread nD τ).loc main_arg10)) (m ((c : Thread nD τ).loc main_arg11)) :=
  (t_v69 (W30 m ρ c)).trans (by
    rw [late30 m ρ c main_v43 (by decide), v43_eq m ρ c, late30 m ρ c main_arg10 (by decide), arg_keep m ρ c main_arg10 (by decide),
      late30 m ρ c main_arg11 (by decide), arg_keep m ρ c main_arg11 (by decide)])

end Cert.KernelIdeal.Gen

end
-- ==== Proof.Entries.lean ====
import proofs.«431307_j60284160967392_2_alg».proof.Proof.Spec
import Idealize.ShloMosaic.Lib.StackMember
import Idealize.ShloMosaic.Lib.Pipeline.Value
import Idealize.ShloMosaic.PureOps.Ideal.Laws

noncomputable section

namespace Cert.KernelIdeal.Gen

open Idealize.ShloMosaic Idealize.ShloMosaic.ValueIdx Cert.Gcn

theorem off00 : (![0, 0] : Fin 2 → Nat) = fun _ => 0 := funext fun a => by fin_cases a <;> rfl

-- The comparison bit is 1 exactly when the two words are equal.
theorem hot_of_cmpi (a b : BitVec 32) :
    (FloatOps.sitofp (F := Ideal) .f32 ((IntOp.cmpi .eq a b).setWidth 32) : EReal) = hot a b := by
  show ((((BitVec.ofBool (a == b)).setWidth 32).toInt : ℝ) : EReal) = if a = b then 1 else 0
  by_cases h : a = b
  · rw [if_pos h, beq_iff_eq.mpr h]; exact_mod_cast rfl
  · rw [if_neg h, beq_eq_false_iff_ne.mpr h]; exact_mod_cast rfl

-- Both sides are the same sum modulo 2 ^ 32.
theorem iv_row_word (k p r : Nat) (h : 1024 * k + p = r) :
    IntOp.addi (Scalar.muli (Scf.iv 0#32 1#32 k) 1024#32) (BitVec.ofNat 32 p) = BitVec.ofNat 32 r := by
  subst h
  unfold Scf.iv
  show (0#32 + BitVec.ofNat 32 k * 1#32) * 1024#32 + BitVec.ofNat 32 p = _
  apply BitVec.eq_of_toNat_eq
  simp only [BitVec.toNat_add, BitVec.toNat_mul, BitVec.toNat_ofNat]
  omega

-- A column broadcast along the second coordinate reads, at every index, the row's one entry.
theorem bcastTo_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h _ (ix2 p (0 : Fin 1)) fun x => ?_
  match x with
  | ⟨0, _⟩ =>
    show p.val = if a = 1 then 0 else p.val
    split
    · have := p.isLt; omega
    · rfl
  | ⟨1, _⟩ => rfl

-- The same through a shape cast that changes nothing.
theorem bcastTo_col_cast {α : Type} {a b : ℕ} (v : (⟨2, ![a, 1]⟩ : Shape).Idx → α)
    (hc : (⟨2, ![a, 1]⟩ : Shape).ShapeCasts ⟨2, ![a, 1]⟩) (h : (⟨2, ![a, 1]⟩ : Shape).Broadcasts ⟨2, ![a, b]⟩)
    (p : Fin a) (c : Fin b) :
    broadcastTo ⟨2, ![a, b]⟩ (shapeCast ⟨2, ![a, 1]⟩ v hc) h (ix2 p c) = v (ix2 p (0 : Fin 1)) := by
  rw [shapeCast_self]; exact bcastTo_col v h p c

-- A plain matrix product added to zero is, at an entry, the sum over the contracted coordinate of the products.
theorem matmul_plain_zero {m k n : ℕ} {φ₁ φ₂ : FTy} (D : DotDims ⟨2, ![m, k]⟩ ⟨2, ![k, n]⟩ ⟨2, ![m, n]⟩)
    (hD : D = DotDims.plain m k n) (prec : Option ContractPrecision) (A : FVec Ideal ⟨2, ![m, k]⟩ φ₁)
    (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  subst hD
  exact (Ideal.matmul_constant_zero_apply _ prec A B _).trans
    ((Ideal.dotGeneral_apply _ prec _ A B _).symm.trans (StackMember.dotGeneral_plain_apply prec A B a b))

end Cert.KernelIdeal.Gen

end
-- ==== Proof.Region0.lean ====
import proofs.«431307_j60284160967392_2_alg».proof.Proof.Entries
import proofs.«431307_j60284160967392_2_alg».proof.Proof.Gen.KernelIdeal.Frame

noncomputable section

namespace Cert.KernelIdeal.Gen

open Idealize.ShloMosaic Idealize.ShloMosaic.ValueIdx Idealize.ShloMosaic.TcCoe Idealize.SL.Sem Cert.Gcn
open Idealize.ShloMosaic.Pipeline (Dat)

theorem dense_idx : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 := by decide +kernel

-- Row r of the array lies in row block r / 1024.
theorem rows_cover (i : S50176x128.Idx) : ∃ t : Fin grid0.N, i ∈ (win0_2.rect t).set := by
  have hi0 : (i 0).val < 50176 := (i 0).isLt
  have hi1 : (i 1).val < 128 := (i 1).isLt
  have ht : (i 0).val / 1024 < grid0.N := by rw [N_0]; omega
  have e4 : win0_2.index ⟨_, ht⟩ (0 : Fin 2) = (i 0).val / 1024 := (dense_idx _).2.2.2.2.1
  have e5 := (dense_idx ⟨_, ht⟩).2.2.2.2.2
  refine ⟨⟨_, ht⟩, Rect.mem_set_unit.2 fun a => ?_⟩
  match a with
  | ⟨0, _⟩ => show win0_2.index _ (0 : Fin 2) * 1024 ≤ (i 0).val ∧ (i 0).val < win0_2.index _ (0 : Fin 2) * 1024 + 1024; omega
  | ⟨1, _⟩ => show win0_2.index _ (1 : Fin 2) * 128 ≤ (i 1).val ∧ (i 1).val < win0_2.index _ (1 : Fin 2) * 128 + 128; omega

-- Entry j of row block t of A times W is the arrays' product at row 1024 t + j 0, column j 1: the sum over the contracted coordinate.
theorem dense_block (A : S50176x128.Idx → EReal) (W : S128x128.Idx → EReal) (t : Fin grid0.N)
    (x : Vec Ideal S1024x128 .f32) (w : Vec Ideal S128x128 .f32)
    (hx : ∀ y, x y = A ((win0_0.rect t).emb y)) (hw : ∀ y, w y = W ((win0_1.rect t).emb y))
    (D : Vec Ideal S1024x128 .f32) (hD : D = out0_2 x w) (j : S1024x128.Idx) :
    D j = denseK A W ((win0_2.rect t).emb j) := by
  obtain ⟨e0, e1, e2, e3, e4, e5⟩ := dense_idx t
  obtain ⟨p, q, rfl⟩ : ∃ (p : Fin 1024) (q : Fin 128), j = ix2 p q := ⟨j 0, j 1, eq_ix2 j⟩
  subst hD
  unfold out0_2 denseK
  rw [View.canon_unit_zero off00, View.ld_unit_zero off00, View.ld_unit_zero off00]
  refine (matmul_plain_zero dot_S1024x128_S128x128_S1024x128_1_0_0_1_n_n rfl none _ _ p q).trans
    (Finset.sum_congr rfl fun k _ => ?_)
  rw [truncf_apply, truncf_apply, shapeCast_self, hx, hw]
  congr 2 <;> funext a <;> apply Fin.ext
  · match a with
    | ⟨0, _⟩ => show win0_0.index t (0 : Fin 2) * 1024 + 1 * p.val = win0_2.index t (0 : Fin 2) * 1024 + 1 * p.val; rw [e0, e4]
    | ⟨1, _⟩ => show win0_0.index t (1 : Fin 2) * 128 + 1 * k.val = k.val; rw [e1, Nat.zero_mul, Nat.zero_add, Nat.one_mul]
  · match a with
    | ⟨0, _⟩ => show win0_1.index t (0 : Fin 2) * 128 + 1 * k.val = k.val; rw [e2, Nat.zero_mul, Nat.zero_add, Nat.one_mul]
    | ⟨1, _⟩ => show win0_1.index t (1 : Fin 2) * 128 + 1 * q.val = win0_2.index t (1 : Fin 2) * 128 + 1 * q.val; rw [e3, e5]

theorem dense0_value (V : (c : Dev nD) → (b : Ref sig .tc) → Buf (Elt Ideal) ((c : Thread nD τ).loc b)) (c : Dev nD) :
    (dat0 (F := Ideal) V c).arrAt 2 cfg0.N
      = Cert.Gcn.denseK (V c (Pipeline.arrRef spec0 0)) (V c (Pipeline.arrRef spec0 1)) :=
  (dat0 (F := Ideal) V c).arrAt_eq_of_cover 2 _
    (fun t _ => funext fun j => dense_block _ _ t _ _ (fun _ => rfl) (fun _ => rfl) _ (after0_2 V c t) j)
    fun i => (rows_cover i).imp fun t h =>
      ⟨flush0_2 t, (congrArg (i ∈ ·) (View.set_slice_whole (Pipeline.arrRef spec0 2) _)).mpr h⟩

end Cert.KernelIdeal.Gen

end
-- ==== Proof.Region1.lean ====
import proofs.«431307_j60284160967392_2_alg».proof.Proof.Entries
import proofs.«431307_j60284160967392_2_alg».proof.Proof.Gen.KernelIdeal.Frame

noncomputable section

namespace Cert.KernelIdeal.Gen

open Idealize.ShloMosaic Idealize.ShloMosaic.ValueIdx Idealize.ShloMosaic.TcCoe Idealize.SL.Sem Cert.Gcn

theorem gather_pay2 (src : S2048x1.Idx → BitVec 32) (k : Fin k1_t1_loop.trips) (acc : S2048x128.Idx → EReal)
    (hblk : S1024x128.Idx → EReal) (p : Fin 2048) (j : Fin 128) :
    k1_pay2 (F := Ideal) src k acc hblk (ix2 p j)
      = acc (ix2 p j) + ∑ q : Fin 1024, hot (src (ix2 p (0 : Fin 1))) (BitVec.ofNat 32 (1024 * k.val + q.val)) * hblk (ix2 q j) := by
  unfold k1_pay2
  refine congrArg (acc (ix2 p j) + ·) ((matmul_plain_zero _ rfl none _ _ p j).trans (Finset.sum_congr rfl fun q _ => ?_))
  rw [← hot_of_cmpi, ← iv_row_word k.val (0 * 1024 + q.val) (1024 * k.val + q.val) (by omega),
    ← bcastTo_col_cast src shapeCasts_S2048x1_S2048x1 broadcasts_S2048x1_S2048x1024 p q]
  exact congrArg _ (congrFun (shapeCast_self hblk shapeCasts_S1024x128_S1024x128) (ix2 q j))

-- The gathered, scaled rows of a block of 2048 edges.
def gatherBlk (x0 : S50176x128.Idx → EReal) (x1 : S2048x1.Idx → BitVec 32) (x2 : S2048x1.Idx → EReal) (y : S2048x128.Idx) : EReal :=
  (∑ n : Fin 50176, hot (x1 (ix2 (row y) (0 : Fin 1))) (BitVec.ofNat 32 n.val) * x0 (ix2 n (col y))) * x2 (ix2 (row y) (0 : Fin 1))

theorem gather_trips : k1_t1_loop.trips = 49 := by decide

-- The term node row n adds to entry (p, j); zero past the last row.
def gather_rowTerm (X0 : S50176x128.Idx → EReal) (src : S2048x1.Idx → BitVec 32) (p : Fin 2048) (j : Fin 128) (n : Nat) : EReal :=
  if h : n < 50176 then hot (src (ix2 p (0 : Fin 1))) (BitVec.ofNat 32 n) * X0 (ix2 ⟨n, h⟩ j) else 0

section Loop
variable {arg1 : Memref sig .tc .vmem S50176x128 .f32} (harg1 : arg1.IsWhole)

theorem gather_trip_rows (x0 : S50176x128.Idx → EReal) (k : Fin k1_t1_loop.trips) (q : Fin 1024) (j : Fin 128) (h : 1024 * k.val + q.val < 50176) :
    View.readAt (Elt Ideal) arg1.view (Rect.unit (s := S50176x128) (k1_off1 k) S1024x128.size (k1_off1_inb k)).toLoadRect (harg1.unread x0) (ix2 q j)
      = x0 (ix2 ⟨1024 * k.val + q.val, h⟩ j) := by
  rw [View.readAt_apply, harg1.read_unread]
  refine congrArg _ (funext fun a => Fin.ext ?_)
  have e := k1_off1_eq k
  match a with
  | ⟨0, _⟩ => show k1_off1 k 0 + 1 * q.val = 1024 * k.val + q.val; rw [e]; show 1024 * k.val + 1 * q.val = _; omega
  | ⟨1, _⟩ => show k1_off1 k 1 + 1 * j.val = j.val; rw [e]; show 0 + 1 * j.val = _; omega

variable {x0 : S50176x128.Idx → EReal} {src : S2048x1.Idx → BitVec 32} {st : ℕ → S2048x128.Idx → EReal}
  (hs : ∀ k : Fin k1_t1_loop.trips, st (k.val + 1) = k1_pay2 (F := Ideal) src k (st k.val)
    (View.readAt (Elt Ideal) arg1.view (Rect.unit (s := S50176x128) (k1_off1 k) S1024x128.size (k1_off1_inb k)).toLoadRect (harg1.unread x0)))
include hs

-- Induction on K: one trip adds the next 1024 node rows.
theorem gather_loop (p : Fin 2048) (j : Fin 128) : ∀ K ≤ 49,
    st K (ix2 p j) = st 0 (ix2 p j) + ∑ n ∈ Finset.range (1024 * K), gather_rowTerm x0 src p j n
  | 0, _ => by rw [Nat.mul_zero, Finset.sum_range_zero, add_zero]
  | K + 1, hK => by
    have hKt : K < k1_t1_loop.trips := by rw [gather_trips]; omega
    rw [hs ⟨K, hKt⟩, gather_pay2, gather_loop p j K (Nat.le_of_succ_le hK), Nat.mul_add_one, Finset.sum_range_add, add_assoc]
    refine congrArg (_ + ·) (congrArg (_ + ·) ?_)
    rw [Finset.sum_range]
    refine Finset.sum_congr rfl fun q _ => ?_
    have hq : 1024 * K + q.val < 50176 := by have := q.isLt; omega
    rw [gather_rowTerm, dif_pos hq, gather_trip_rows harg1 x0 ⟨K, hKt⟩ q j hq]

-- After the 49 trips from zero every node row has been added once; each row is then scaled by its edge's coefficient.
theorem gather_block (h0 : st 0 = k1_pay1 (F := Ideal)) (nrm : S2048x1.Idx → EReal) :
    k1_pay3 (F := Ideal) (st k1_t1_loop.trips) nrm = gatherBlk x0 src nrm := by
  funext y
  obtain ⟨p, j, rfl⟩ : ∃ (p : Fin 2048) (j : Fin 128), y = ix2 p j := ⟨y 0, y 1, eq_ix2 y⟩
  unfold k1_pay3 gatherBlk
  refine (congrArg (_ * ·) (bcastTo_col_cast nrm _ _ p j)).trans (congrArg (· * nrm (ix2 p (0 : Fin 1))) ?_)
  rw [gather_trips, gather_loop harg1 hs p j 49 le_rfl, h0]
  show Ideal.ofBits .f32 0x00000000#32 + _ = _
  rw [Ideal.ofBits_zero_f32, zero_add, show 1024 * 49 = 50176 from rfl, Finset.sum_range]
  exact Finset.sum_congr rfl fun n _ => by rw [gather_rowTerm, dif_pos n.isLt]

end Loop

theorem gather1_block : @out1_A_3 Ideal _ = fun _ _ _ _ _ _ _ _ _ _ x0 x1 x2 => gatherBlk x0 x1 x2 := by
  funext c i arg1 harg1 arg2 harg2 arg3 harg3 arg4 harg4 x0 x1 x2
  unfold out1_A_3
  rw [View.read_writes_eq_canon _ _ _ fun y => cover1_A_3 (y := y) ..]
  unfold kernelRun1_A
  rw [View.canon_unit_zero off00]
  simp only [View.readAt_eq_ld, harg2.read_unread, harg3.read_unread, View.ld_unit_zero (S := S2048x1) off00]
  exact gather_block harg1 (fun k => (st_k1_t1_succ (k := k) ..).trans (by unfold tripR_k1_t1 trip_k1_t1; rfl)) rfl x2

theorem gather_idx : ∀ t : Fin cfg1.N, win1_0.index t (0 : Fin 2) = 0 ∧ win1_0.index t (1 : Fin 2) = 0
    ∧ win1_1.index t (0 : Fin 2) = t.val ∧ win1_1.index t (1 : Fin 2) = 0
    ∧ win1_3.index t (0 : Fin 2) = t.val ∧ win1_3.index t (1 : Fin 2) = 0 :=
  (by decide +kernel : ∀ t : Fin grid1.N, _)

-- The index maps of the four arrays agree row by row.
theorem gather_flushed (A0 : (Sh2 50176 128).Idx → EReal) (A1 : (Sh2 800768 1).Idx → BitVec 32) (A2 : (Sh2 800768 1).Idx → EReal)
    (t : Fin cfg1.N) :
    (cfg1.win 3).cut (grid1.coords t) (gatherBlk (((cfg1.win 0).blk t).view.read (Elt Ideal) A0)
        (((cfg1.win 1).blk t).view.read (Elt Ideal) A1) (((cfg1.win 2).blk t).view.read (Elt Ideal) A2))
      = ((cfg1.win 3).blk t).view.read (Elt Ideal) (gatherK A0 A1 A2) := by
  obtain ⟨e00, e01, e10, e11, e30, e31⟩ := gather_idx t
  funext y
  have h1 : (((cfg1.win 1).blk t).view.emb (ix2 (row y) (0 : Fin 1)) : (Sh2 800768 1).Idx)
      = ix2 (row (((cfg1.win 3).blk t).view.emb y : (Sh2 800768 128).Idx)) (0 : Fin 1) :=
    Shape.idx_ext₂ (by show win1_1.index t 0 * 2048 + 1 * (y 0).val = win1_3.index t 0 * 2048 + 1 * (y 0).val; omega)
      (by show win1_1.index t 1 * 1 + 1 * 0 = 0; omega)
  have h0 (n : Fin 50176) : (((cfg1.win 0).blk t).view.emb (ix2 n (col y)) : (Sh2 50176 128).Idx)
      = ix2 n (col (((cfg1.win 3).blk t).view.emb y : (Sh2 800768 128).Idx)) :=
    Shape.idx_ext₂ (by show win1_0.index t 0 * 50176 + 1 * n.val = n.val; omega)
      (by show win1_0.index t 1 * 128 + 1 * (y 1).val = win1_3.index t 1 * 128 + 1 * (y 1).val; omega)
  show gatherBlk (fun x => A0 (((cfg1.win 0).blk t).view.emb x)) (fun x => A1 (((cfg1.win 1).blk t).view.emb x))
    (fun x => A2 (((cfg1.win 2).blk t).view.emb x)) y = gatherK A0 A1 A2 (((cfg1.win 3).blk t).view.emb y)
  generalize (((cfg1.win 3).blk t).view.emb y : (Sh2 800768 128).Idx) = e3 at h0 h1 ⊢
  unfold gatherBlk gatherK
  simp only [h1, show ((cfg1.win 2).blk t).view.emb (ix2 (row y) (0 : Fin 1)) = _ from h1, h0]

-- Row r is in the block of point r / 2048.
theorem gather_cover (i : (Sh2 800768 128).Idx) :
    ∃ t : Fin cfg1.N, (cfg1.win 3).flush t = true ∧ i ∈ ((cfg1.win 3).blk t).view.set := by
  have hi0 : (i 0).val < 800768 := idx2_lt0 i
  have hi1 : (i 1).val < 128 := idx2_lt1 i
  have ht : (i 0).val / 2048 < cfg1.N := by rw [show cfg1.N = 391 from N_1]; omega
  obtain ⟨-, -, -, -, e30, e31⟩ := gather_idx ⟨_, ht⟩
  refine ⟨⟨_, ht⟩, flush1_3 _, ?_⟩
  show i ∈ ((View.whole (Pipeline.arrRef spec1 3)).slice (win1_3.rect ⟨_, ht⟩)).set
  rw [View.set_slice_whole, Rect.mem_set_unit]
  intro a
  match a with
  | ⟨0, _⟩ => show win1_3.index ⟨_, ht⟩ 0 * 2048 ≤ (i 0).val ∧ (i 0).val < win1_3.index ⟨_, ht⟩ 0 * 2048 + 2048; rw [e30]; dsimp only; omega
  | ⟨1, _⟩ => show win1_3.index ⟨_, ht⟩ 1 * 128 ≤ (i 1).val ∧ (i 1).val < win1_3.index ⟨_, ht⟩ 1 * 128 + 128; rw [e31]; omega

theorem gather1_value (V : (c : Dev nD) → (b : Ref sig .tc) → Buf (Elt Ideal) ((c : Thread nD τ).loc b)) (c : Dev nD) :
    (dat1 (F := Ideal) V c).arrAt 3 cfg1.N
      = Cert.Gcn.gatherK (V c (Pipeline.arrRef spec1 0)) (V c (Pipeline.arrRef spec1 1)) (V c (Pipeline.arrRef spec1 2)) :=
  (dat1 (F := Ideal) V c).arrAt_eq_of_cover 3 _ (fun t _ => by
    show (cfg1.win 3).cut (grid1.coords t) ((dat1 V c).after 3 t) = _
    rw [after1_3, outsAt1, gather1_block]
    exact gather_flushed _ _ _ t) gather_cover

end Cert.KernelIdeal.Gen

end
-- ==== Proof.Region2Step.lean ====
import proofs.«431307_j60284160967392_2_alg».proof.Proof.Entries
import proofs.«431307_j60284160967392_2_alg».proof.Proof.Gen.KernelIdeal.Frame
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Writes
import Idealize.ShloMosaic.Lib.WritesUnit

noncomputable section

namespace Cert.KernelIdeal.Gen

open Idealize.ShloMosaic Idealize.ShloMosaic.TcCoe Idealize.ShloMosaic.Tactic Idealize.ShloMosaic.ValueIdx Cert.Gcn
open Idealize.SL.Sem
open scoped BigOperators

-- Over the extended reals the selector matrix times the message block is the plain sum over the block's 2048 edges.
theorem k2_pay2_apply (v3 : Vec Ideal S1x2048 .i32) (v5 : Vec Ideal S2048x128 .f32) (k : Fin k2_t1_loop.trips)
    (v21 : Vec Ideal S1024x128 .f32) (p : Fin 1024) (q : Fin 128) :
    k2_pay2 (F := Ideal) v3 v5 k v21 (ix2 p q)
      = v21 (ix2 p q) + ∑ e : Fin 2048, hot (v3 (ix2 (0 : Fin 1) e)) (BitVec.ofNat 32 (1024 * k.val + p.val)) * v5 (ix2 e q) := by
  unfold k2_pay2
  refine (addf_apply _ _ _).trans (congrArg₂ (· + ·) (congrFun (shapeCast_self v21 _) _) ?_)
  refine (matmul_plain_zero dot_S1024x2048_S2048x128_S1024x128_1_0_0_1_n_n rfl none _ _ p q).trans ?_
  refine Finset.sum_congr rfl fun e _ => congrArg₂ (· * ·) ?_ (congrFun (shapeCast_self v5 _) _)
  show (FloatOps.sitofp (F := Ideal) .f32 ((IntOp.cmpi .eq
      (broadcastTo S1024x2048 (shapeCast S1x2048 v3 shapeCasts_S1x2048_S1x2048) broadcasts_S1x2048_S1024x2048 (ix2 p e))
      (IntOp.addi (Scalar.muli (Scf.iv 0#32 1#32 k.val) 1024#32)
        (iota Kind.tc S1024x2048 32 [0] iota_S1024x2048_d0_w32 (ix2 p e)))).setWidth 32) : EReal) = _
  rw [broadcastTo_1b_ab_apply, shapeCast_self, iota_single_apply, iv_row_word _ _ _ rfl, hot_of_cmpi]

theorem k2_trips : k2_t1_loop.trips = 49 := by decide

section AnyF
variable {F : FTy → Type} [FloatOps F]

def k2_pay (old : S50176x128.Idx → Elt F .f32) (v3 : Vec F S1x2048 .i32) (v5 : Vec F S2048x128 .f32)
    (k : Fin k2_t1_loop.trips) : S1024x128.Idx → Elt F .f32 :=
  k2_pay2 v3 v5 k (View.ld old (Rect.unit (s := S50176x128) (k2_off1 k) S1024x128.size (k2_off1_inb k)))

abbrev k2_pieces (old : S50176x128.Idx → Elt F .f32) (v3 : Vec F S1x2048 .i32) (v5 : Vec F S2048x128 .f32)
    (n : ℕ) (hn : n ≤ k2_t1_loop.trips) : List (View.Piece (Elt F) S50176x128 .f32) :=
  View.tilePieces (s := S50176x128) S1024x128.size k2_off1 k2_off1_inb (k2_pay old v3 v5) n hn

theorem k2_read_above {sig' : RefSig} {κ' : Kind} {sp' : Space} (v : View sig' κ' sp' S50176x128 .f32)
    (f : v.ty.Contents (Elt F)) (old : S50176x128.Idx → Elt F .f32) (v3 : Vec F S1x2048 .i32) (v5 : Vec F S2048x128 .f32) :
    ∀ (n : ℕ) (hn : n ≤ k2_t1_loop.trips) (y : S50176x128.Idx), 1024 * n ≤ (y (0 : Fin 2)).val →
      v.read (Elt F) (v.writes (Elt F) f (k2_pieces old v3 v5 n hn)) y = v.read (Elt F) f y
  | 0, _, _, _ => rfl
  | n + 1, hn, y, hy => by
    refine (View.read_writes_cons_unit_of_not_mem v f _ _ _ y (k2_off1_eq ⟨n, hn⟩) 0 (Or.inr ?_)).trans
      (k2_read_above v f old v3 v5 n _ y (by omega))
    show 1024 * n + 1024 ≤ _
    omega

theorem k2_pay_above {sig' : RefSig} {κ' : Kind} {sp' : Space} (v : View sig' κ' sp' S50176x128 .f32)
    (f : v.ty.Contents (Elt F)) (old : S50176x128.Idx → Elt F .f32) (v3 : Vec F S1x2048 .i32) (v5 : Vec F S2048x128 .f32)
    (n : ℕ) (hn : n < k2_t1_loop.trips) :
    k2_pay (v.read (Elt F) (v.writes (Elt F) f (k2_pieces old v3 v5 n (le_of_lt hn)))) v3 v5 ⟨n, hn⟩
      = k2_pay (v.read (Elt F) f) v3 v5 ⟨n, hn⟩ :=
  congrArg (k2_pay2 v3 v5 ⟨n, hn⟩) (funext fun x => k2_read_above v f old v3 v5 n _ _ (by
    have e0 : (k2_off1 ⟨n, hn⟩) 0 = 1024 * n := by rw [k2_off1_eq]; rfl
    show 1024 * n ≤ (k2_off1 ⟨n, hn⟩) 0 + 1 * (x 0).val
    omega))

theorem k2_pb_eq {sig' : RefSig} {κ' : Kind} {sp' : Space} (v : View sig' κ' sp' S50176x128 .f32)
    (G : v.ty.Contents (Elt F)) (v3 : Vec F S1x2048 .i32) (v5 : Vec F S2048x128 .f32)
    (pb : ℕ → List (View.Piece (Elt F) S50176x128 .f32)) (h0 : pb 0 = [])
    (hs : ∀ k : Fin k2_t1_loop.trips, pb (k.val + 1)
      = ⟨Rect.unit (s := S50176x128) (k2_off1 k) S1024x128.size (k2_off1_inb k),
          k2_pay (v.read (Elt F) (v.writes (Elt F) G (pb k.val))) v3 v5 k⟩ :: pb k.val) :
    ∀ (n : ℕ) (hn : n ≤ k2_t1_loop.trips), pb n = k2_pieces (v.read (Elt F) G) v3 v5 n hn
  | 0, _ => h0
  | n + 1, hn => by
    rw [hs ⟨n, hn⟩, k2_pb_eq v G v3 v5 pb h0 hs n (Nat.le_of_succ_le hn), k2_pay_above]
    rfl

end AnyF

-- Row y lies in the rows of one trip only: trip y / 1024, at row y % 1024 of its block.
theorem k2_final {sig' : RefSig} {κ' : Kind} {sp' : Space} (v : View sig' κ' sp' S50176x128 .f32)
    (f : v.ty.Contents (Elt Ideal)) (old : S50176x128.Idx → EReal) (x1 : Vec Ideal S1x2048 .i32)
    (x0 : Vec Ideal S2048x128 .f32) (y : S50176x128.Idx) :
    v.read (Elt Ideal) (v.writes (Elt Ideal) f (k2_pieces (F := Ideal) old x1 x0 k2_t1_loop.trips le_rfl)) y
      = old y + scatterBlk x0 x1 y := by
  have hy0 : (y 0).val < 50176 := idx2_lt0 y
  have hlt : (y 0).val / 1024 < k2_t1_loop.trips := by rw [k2_trips]; omega
  have hp : (y 0).val % 1024 < 1024 := Nat.mod_lt _ (by decide)
  rw [View.read_tilePieces v f _ _ _ _ _ _ y ⟨(y 0).val / 1024, hlt⟩ hlt (ix2 (⟨(y 0).val % 1024, hp⟩ : Fin 1024) (col y))
    (by rw [k2_off1_eq]; exact Fin.forall_fin_two.mpr ⟨by show (y 0).val = 1024 * ((y 0).val / 1024) + (y 0).val % 1024; omega,
      by show (y 1).val = 0 + (y 1).val; omega⟩) 0
    (fun i' hi' => by
      rw [k2_off1_eq]
      have : i'.val ≠ (y 0).val / 1024 := fun h => hi' (Fin.ext h)
      show (y 0).val < 1024 * i'.val ∨ 1024 * i'.val + 1024 ≤ (y 0).val
      omega)]
  show k2_pay2 (F := Ideal) x1 x0 ⟨(y 0).val / 1024, hlt⟩ _ (ix2 (⟨(y 0).val % 1024, hp⟩ : Fin 1024) (col y)) = _
  rw [k2_pay2_apply]
  refine congrArg₂ (· + ·) (congrArg old (Shape.idx_ext₂ ?_ ?_)) ?_
  · show (k2_off1 ⟨(y 0).val / 1024, hlt⟩) 0 + 1 * ((y 0).val % 1024) = (y 0).val
    rw [k2_off1_eq]
    show 1024 * ((y 0).val / 1024) + 1 * ((y 0).val % 1024) = (y 0).val
    omega
  · show (k2_off1 ⟨(y 0).val / 1024, hlt⟩) 1 + 1 * (y 1).val = (y 1).val
    rw [k2_off1_eq]
    show 0 + 1 * (y 1).val = (y 1).val
    omega
  · have hrow : 1024 * ((y 0).val / 1024) + (y 0).val % 1024 = (row y).val := by show _ = (y 0).val; omega
    show ∑ e : Fin 2048, hot (x1 (ix2 (0 : Fin 1) e)) (BitVec.ofNat 32 (1024 * ((y 0).val / 1024) + (y 0).val % 1024)) * x0 (ix2 e (col y)) = _
    rw [hrow]
    rfl

theorem k2_zero {sig' : RefSig} {κ' : Kind} {sp' : Space} (v : View sig' κ' sp' S50176x128 .f32)
    (z : FVec Ideal S50176x128 .f32) (hz : z = k2_pay1) :
    v.read (Elt Ideal) (v.writes (Elt Ideal) v.junk
      [⟨Rect.unit (s := S50176x128) ![0, 0] S50176x128.size inb_S50176x128_S50176x128_0_0, z⟩]) = fun _ => 0 := by
  subst hz
  rw [View.read_writes_eq_canon _ _ _ (fun y => ⟨_, List.mem_singleton_self _, View.mem_set_unit_zero off00 inb_S50176x128_S50176x128_0_0 y⟩),
    View.canon_unit_zero off00]
  funext y
  exact Ideal.ofBits_zero_f32

section Point2
variable {F : FTy → Type} [FloatOps F] (c : Dev nD) (i : grid2.Coords) (a1 : Memref sig .tc .vmem S2048x128 .f32) (h1 : a1.IsWhole)
  (a2 : Memref sig .tc .vmem S1x2048 .i32) (h2 : a2.IsWhole) (a3 : Memref sig .tc .vmem S50176x128 .f32) (h3 : a3.IsWhole)

theorem k2_pb (𝒱 : Variants) (bd : Option 𝒱.V) (v3 : Vec F S1x2048 .i32) (v5 : Vec F S2048x128 .f32)
    (G : BufTy.Contents (Elt F) a3.view.ty) :
    pb_k2_t1 (F := F) 𝒱 c bd i a1 h1 a2 h2 a3 h3 v3 v5 G k2_t1_loop.trips
      = k2_pieces (a3.view.read (Elt F) G) v3 v5 k2_t1_loop.trips le_rfl :=
  k2_pb_eq a3.view G v3 v5 _ rfl
    (fun k => (pb_k2_t1_succ 𝒱 c bd i a1 h1 a2 h2 a3 h3 v3 v5 G k).trans (by unfold tripL_k2_t1 trip_k2_t1; rfl)) _ le_rfl

theorem out2_B_val (hc : ¬cond2_0 i) (x0 : Vec Ideal S2048x128 .f32) (x1 : Vec Ideal S1x2048 .i32)
    (xo : Vec Ideal S50176x128 .f32) :
    out2_B_2 (F := Ideal) c i a1 h1 a2 h2 a3 h3 hc x0 x1 xo = fun y => xo y + scatterBlk x0 x1 y := by
  unfold out2_B_2 kernelRun2_B
  dsimp only
  rw [k2_pb]
  simp only [View.readAt_eq_ld, h1.read_unread, h2.read_unread, h3.read_unread,
    View.ld_unit_zero (S := S1x2048) off00, View.ld_unit_zero (S := S2048x128) off00]
  exact funext (k2_final VO2_2 _ xo x1 x0)

theorem out2_A_val (hc : cond2_0 i) (x0 : Vec Ideal S2048x128 .f32) (x1 : Vec Ideal S1x2048 .i32) :
    out2_A_2 (F := Ideal) c i a1 h1 a2 h2 a3 h3 hc x0 x1 = fun y => 0 + scatterBlk x0 x1 y := by
  unfold out2_A_2 kernelRun2_A
  dsimp only
  sl_unfold_words
  rw [k2_pb, k2_zero _ k2_pay1 rfl, View.writes_append]
  simp only [View.readAt_eq_ld, h1.read_unread, h2.read_unread,
    View.ld_unit_zero (S := S1x2048) off00, View.ld_unit_zero (S := S2048x128) off00]
  exact funext (k2_final VO2_2 _ (fun _ => 0) x1 x0)

end Point2

section Steps2
variable (V : (c : Dev nD) → (b : Ref sig .tc) → Buf (Elt Ideal) ((c : Thread nD τ).loc b)) (c : Dev nD) (t : Fin cfg2.N)

theorem outsAt2_first (h0 : t.val % 391 = 0) :
    outsAt2 (F := Ideal) V c t.val t.isLt = fun i => 0 + scatterBlk (iblk2 V c 0 t) (iblk2 V c 1 t) i :=
  (outsAt2_A V c t h0).trans (out2_A_val c _ _ _ _ _ _ _ _ _ _)

theorem outsAt2_next (h0 : ¬ t.val % 391 = 0) :
    outsAt2 (F := Ideal) V c t.val t.isLt
      = fun i => outsAt2 (F := Ideal) V c (t.val - 1) (by omega) i + scatterBlk (iblk2 V c 0 t) (iblk2 V c 1 t) i :=
  (outsAt2_B V c t h0).trans (out2_B_val c _ _ _ _ _ _ _ _ _ _ _)

end Steps2

end Cert.KernelIdeal.Gen
-- ==== Proof.ScatterAcc.lean ====
import proofs.«431307_j60284160967392_2_alg».proof.Proof.Spec
import Mathlib.Algebra.BigOperators.Fin
import Mathlib.Data.Fintype.BigOperators
import Mathlib.Logic.Equiv.Fin.Basic

noncomputable section

namespace Cert.Gcn

open Idealize.ShloMosaic Idealize.ShloMosaic.ValueIdx

theorem acc_apply {ι β : Type*} [AddCommMonoid β] {N : ℕ}
    (f blk : (n : ℕ) → n < N → ι → β)
    (h0 : ∀ h : 0 < N, f 0 h = fun i => 0 + blk 0 h i)
    (hs : ∀ (n : ℕ) (h : n + 1 < N), f (n + 1) h = fun i => f n (Nat.lt_of_succ_lt h) i + blk (n + 1) h i) :
    ∀ (n : ℕ) (h : n < N) (i : ι),
      f n h i = ∑ t : Fin (n + 1), blk t.val (lt_of_le_of_lt (Nat.le_of_lt_succ t.isLt) h) i
  | 0, h, i => by
    rw [h0 h, Fin.sum_univ_one]
    exact zero_add _
  | n + 1, h, i => by
    rw [hs n h, Fin.sum_univ_castSucc]
    show f n _ i + _ = _
    rw [acc_apply f blk h0 hs n (Nat.lt_of_succ_lt h) i]
    rfl

-- Edge e is edge q of block t with e = 2048 t + q.
theorem sum_edges {β : Type*} [AddCommMonoid β] (g : Fin 800768 → β) :
    ∑ e : Fin 800768, g e
      = ∑ t : Fin 391, ∑ q : Fin 2048, g ⟨2048 * t.val + q.val, by have := t.isLt; have := q.isLt; omega⟩ := by
  rw [← Fintype.sum_prod_type']
  refine (Fintype.sum_equiv (finProdFinEquiv (m := 391) (n := 2048)) _ _ fun x => ?_).symm
  refine congrArg g (Fin.ext ?_)
  show 2048 * x.1.val + x.2.val = x.2.val + 2048 * x.1.val
  omega

def edgeBlk (msg : (Sh2 800768 128).Idx → EReal) (dst : (Sh2 1 800768).Idx → BitVec 32) (t : ℕ) (ht : t < 391) :
    (Sh2 50176 128).Idx → EReal :=
  fun i => ∑ q : Fin 2048,
    hot (dst (ix2 (0 : Fin 1) (⟨2048 * t + q.val, by have := q.isLt; omega⟩ : Fin 800768))) (BitVec.ofNat 32 (row i).val)
      * msg (ix2 (⟨2048 * t + q.val, by have := q.isLt; omega⟩ : Fin 800768) (col i))

theorem scatterK_eq_sum_blocks (msg : (Sh2 800768 128).Idx → EReal) (dst : (Sh2 1 800768).Idx → BitVec 32)
    (i : (Sh2 50176 128).Idx) :
    scatterK msg dst i = ∑ t : Fin 391, edgeBlk msg dst t.val t.isLt i := by
  unfold scatterK edgeBlk
  exact sum_edges fun e => hot (dst (ix2 (0 : Fin 1) e)) (BitVec.ofNat 32 (row i).val) * msg (ix2 e (col i))

theorem scatter_acc {N : ℕ} (hN : N = 391) (msg : (Sh2 800768 128).Idx → EReal) (dst : (Sh2 1 800768).Idx → BitVec 32)
    (f : (n : ℕ) → n < N → (Sh2 50176 128).Idx → EReal)
    (mb : Fin N → (Sh2 2048 128).Idx → EReal) (db : Fin N → (Sh2 1 2048).Idx → BitVec 32)
    (hblk : ∀ (t : Fin N) (ht : t.val < 391), scatterBlk (mb t) (db t) = edgeBlk msg dst t.val ht)
    (h0 : ∀ t : Fin N, t.val % 391 = 0 → f t.val t.isLt = fun i => 0 + scatterBlk (mb t) (db t) i)
    (hs : ∀ t : Fin N, ¬ t.val % 391 = 0 → f t.val t.isLt
      = fun i => f (t.val - 1) (Nat.lt_of_le_of_lt (Nat.sub_le _ _) t.isLt) i + scatterBlk (mb t) (db t) i)
    (hlast : 390 < N) : f 390 hlast = scatterK msg dst := by
  subst hN
  funext i
  rw [acc_apply f (fun n h => scatterBlk (mb ⟨n, h⟩) (db ⟨n, h⟩)) (fun h => h0 ⟨0, h⟩ rfl)
    (fun n h => hs ⟨n + 1, h⟩ (by show ¬ (n + 1) % 391 = 0; omega)) 390 hlast i, scatterK_eq_sum_blocks]
  exact Finset.sum_congr rfl fun t _ => congrFun (hblk ⟨t.val, _⟩ t.isLt) i

end Cert.Gcn
-- ==== Proof.Region2.lean ====
import proofs.«431307_j60284160967392_2_alg».proof.Proof.Region2Step
import proofs.«431307_j60284160967392_2_alg».proof.Proof.ScatterAcc

noncomputable section

namespace Cert.KernelIdeal.Gen

open Idealize.ShloMosaic Idealize.ShloMosaic.TcCoe Idealize.ShloMosaic.ValueIdx Idealize.SL.Sem Cert.Gcn
open Idealize.ShloMosaic.Pipeline (Dat)

theorem index2_0 : ∀ t : Fin grid2.N, win2_0.index t (0 : Fin 2) = t.val ∧ win2_0.index t (1 : Fin 2) = 0 := by decide +kernel
theorem index2_1 : ∀ t : Fin grid2.N, win2_1.index t (0 : Fin 2) = 0 ∧ win2_1.index t (1 : Fin 2) = t.val := by decide +kernel

theorem k2_blk (A0 : (Sh2 800768 128).Idx → EReal) (A1 : (Sh2 1 800768).Idx → BitVec 32) (t : Fin grid2.N) (ht : t.val < 391) :
    scatterBlk (fun j => A0 ((win2_0.rect t).emb j)) (fun j => A1 ((win2_1.rect t).emb j)) = edgeBlk A0 A1 t.val ht := by
  funext i
  unfold scatterBlk edgeBlk
  refine Finset.sum_congr rfl fun q _ => ?_
  refine congrArg₂ (· * ·) (congrArg₂ hot (congrArg A1 (Shape.idx_ext₂ ?_ ?_)) rfl) (congrArg A0 (Shape.idx_ext₂ ?_ ?_))
  · exact (win2_1.rect_emb_val t _ 0).trans (by rw [(index2_1 t).1]; rfl)
  · exact (win2_1.rect_emb_val t _ 1).trans (by rw [(index2_1 t).2]; show t.val * 2048 + q.val = 2048 * t.val + q.val; omega)
  · exact (win2_0.rect_emb_val t _ 0).trans (by rw [(index2_0 t).1]; show t.val * 2048 + q.val = 2048 * t.val + q.val; omega)
  · exact (win2_0.rect_emb_val t _ 1).trans (by rw [(index2_0 t).2]; show 0 * 128 + (i 1).val = (i 1).val; omega)

theorem k2_emb_last (t : Fin grid2.N) (x : S50176x128.Idx) : (win2_2.rect t).emb x = x :=
  Shape.idx_ext₂ (win2_2.rect_emb_val_of_index_zero t 0 rfl x) (win2_2.rect_emb_val_of_index_zero t 1 rfl x)

theorem k2_read_last (G : S50176x128.Idx → EReal) (t : Fin grid2.N) : G = fun x => G ((win2_2.rect t).emb x) :=
  funext fun x => congrArg G (k2_emb_last t x).symm

theorem arrAt_of_last {cfg : Pipeline.Cfg sig Λ₀} {c : Dev nD} (dat : Dat τ (Elt Ideal) Unit ℕ (UR sig nD τ) ℕ cfg c)
    (w : Fin cfg.W) (G : Buf (Elt Ideal) ((cfg.win w).arr.view.loc (c.tc : Thread nD τ))) (hN : cfg.N = 391)
    (hfl : ∀ t : Fin cfg.N, (cfg.win w).flush t = true ↔ t.val % 391 = 390)
    (hG : ∀ h : 390 < cfg.N, dat.flushed w ⟨390, h⟩ = ((cfg.win w).blk ⟨390, h⟩).view.read (Elt Ideal) G)
    (hcov : ∀ (h : 390 < cfg.N) (i : ((cfg.win w).arr.view.loc (c.tc : Thread nD τ)).2.ty.Idx),
      ∃ x, ((cfg.win w).blk ⟨390, h⟩).view.emb x = i) :
    dat.arrAt w cfg.N = G :=
  have hN' : cfg.grid.N = 391 := hN
  have hl : 390 < cfg.N := by omega
  dat.arrAt_eq_of_cover w G
    (fun t hf => by
      obtain rfl : t = ⟨390, hl⟩ := Fin.ext (by show t.val = 390; have := (hfl t).mp hf; have := t.isLt; omega)
      exact hG _)
    (fun i => ⟨⟨390, hl⟩, (hfl _).mpr rfl, by obtain ⟨x, rfl⟩ := hcov hl i; exact View.emb_mem_set _ x⟩)

section Region2
variable (V : (c : Dev nD) → (b : Ref sig .tc) → Buf (Elt Ideal) ((c : Thread nD τ).loc b)) (c : Dev nD)

theorem outsAt2_last (h : 390 < cfg2.N) :
    outsAt2 (F := Ideal) V c 390 h = scatterK (V c (Pipeline.arrRef spec2 0)) (V c (Pipeline.arrRef spec2 1)) :=
  scatter_acc N_2 _ _ (outsAt2 (F := Ideal) V c) (iblk2 (F := Ideal) V c 0) (iblk2 (F := Ideal) V c 1)
    (k2_blk (V c (Pipeline.arrRef spec2 0)) (V c (Pipeline.arrRef spec2 1))) (outsAt2_first V c) (outsAt2_next V c) h

theorem read2_last (G : S50176x128.Idx → EReal) (h : 390 < cfg2.N) :
    G = ((cfg2.win 2).blk ⟨390, h⟩).view.read (Elt Ideal) G := k2_read_last G ⟨390, h⟩

theorem scatter2_value :
    (dat2 (F := Ideal) V c).arrAt 2 cfg2.N
      = Cert.Gcn.scatterK (V c (Pipeline.arrRef spec2 0)) (V c (Pipeline.arrRef spec2 1)) :=
  arrAt_of_last (dat2 (F := Ideal) V c) 2 _ N_2 flush2_2
    (fun h => ((after2_2 V c ⟨390, h⟩).trans (outsAt2_last V c h)).trans (read2_last _ h))
    (fun h i => ⟨i, k2_emb_last ⟨390, h⟩ i⟩)

end Region2

end Cert.KernelIdeal.Gen
-- ==== Proof.Region3.lean ====
import proofs.«431307_j60284160967392_2_alg».proof.Proof.Region0
import Idealize.ShloMosaic.Lib.ValueLayout

noncomputable section

namespace Cert.KernelIdeal.Gen

open Idealize.ShloMosaic Idealize.ShloMosaic.TcCoe Idealize.ShloMosaic.ValueIdx Idealize.SL.Sem Cert.Gcn

theorem combine_idx : ∀ t : Fin grid3.N, win3_2.index t (1 : Fin 2) = 0
    ∧ win3_3.index t (0 : Fin 2) = 0 ∧ win3_3.index t (1 : Fin 2) = 0 ∧ win3_4.index t (1 : Fin 2) = 0 := by decide +kernel

-- Entry j of row block t: the combine of the four arrays at row 1024 t + j 0, column j 1.
theorem combine_block (A H : S50176x128.Idx → EReal) (S : S50176x1.Idx → EReal) (B : S1x128.Idx → EReal) (t : Fin grid3.N)
    (x0 x1 : Vec Ideal S1024x128 .f32) (x2 : Vec Ideal S1024x1 .f32) (x3 : Vec Ideal S1x128 .f32)
    (h0 : ∀ y, x0 y = A ((win3_4.rect t).emb y)) (h1 : ∀ y, x1 y = H ((win3_4.rect t).emb y))
    (h2 : ∀ y, x2 y = S ((win3_2.rect t).emb y)) (h3 : ∀ y, x3 y = B ((win3_3.rect t).emb y))
    (D : Vec Ideal S1024x128 .f32) (hD : D = out3_4 x0 x1 x2 x3) (j : S1024x128.Idx) :
    D j = combineK A H S B ((win3_4.rect t).emb j) := by
  obtain ⟨e21, e30, e31, e41⟩ := combine_idx t
  obtain ⟨p, q, rfl⟩ : ∃ (p : Fin 1024) (q : Fin 128), j = ix2 p q := ⟨j 0, j 1, eq_ix2 j⟩
  have hS : (win3_2.rect t).emb (ix2 p (0 : Fin 1)) = ix2 (row ((win3_4.rect t).emb (ix2 p q))) 0 := by
    funext a; apply Fin.ext
    match a with
    | ⟨0, _⟩ => rfl
    | ⟨1, _⟩ => show win3_2.index t (1 : Fin 2) * 1 + 1 * 0 = 0; rw [e21]
  have hB : (win3_3.rect t).emb (ix2 (0 : Fin 1) q) = ix2 0 (col ((win3_4.rect t).emb (ix2 p q))) := by
    funext a; apply Fin.ext
    match a with
    | ⟨0, _⟩ => show win3_3.index t (0 : Fin 2) * 1 + 1 * 0 = 0; rw [e30]
    | ⟨1, _⟩ => show win3_3.index t (1 : Fin 2) * 128 + 1 * q.val = win3_4.index t (1 : Fin 2) * 128 + 1 * q.val; rw [e31, e41]
  subst hD
  unfold out3_4 k3_pay1 combineK
  rw [View.canon_unit_zero off00, View.ld_unit_zero off00, View.ld_unit_zero off00, View.ld_unit_zero off00,
    View.ld_unit_zero off00, maximumf_apply, addf_apply, addf_apply, mulf_apply, broadcast_apply,
    shapeCast_self, shapeCast_self, shapeCast_self, shapeCast_self, bcastTo_col, broadcastTo_1b_ab_apply,
    h0, h1, h2, h3, hS, hB]
  show max _ (Ideal.ofBits .f32 0x00000000#32) = _
  rw [Ideal.ofBits_zero_f32]

theorem combine3_value (V : (c : Dev nD) → (b : Ref sig .tc) → Buf (Elt Ideal) ((c : Thread nD τ).loc b)) (c : Dev nD) :
    (dat3 (F := Ideal) V c).arrAt 4 cfg3.N
      = Cert.Gcn.combineK (V c (Pipeline.arrRef spec3 0)) (V c (Pipeline.arrRef spec3 1)) (V c (Pipeline.arrRef spec3 2)) (V c (Pipeline.arrRef spec3 3)) :=
  (dat3 (F := Ideal) V c).arrAt_eq_of_cover 4 _
    (fun t _ => funext fun j => combine_block _ _ _ _ t _ _ _ _ (fun _ => rfl) (fun _ => rfl) (fun _ => rfl) (fun _ => rfl) _
      (after3_4 V c t) j)
    fun i => (rows_cover i).imp fun t h =>
      ⟨flush3_4 t, (congrArg (i ∈ ·) (View.set_slice_whole (Pipeline.arrRef spec3 4) _)).mpr h⟩

end Cert.KernelIdeal.Gen

end
-- ==== Proof.Region4.lean ====
import proofs.«431307_j60284160967392_2_alg».proof.Proof.Region0

noncomputable section

namespace Cert.KernelIdeal.Gen

open Idealize.ShloMosaic Idealize.ShloMosaic.TcCoe Idealize.SL.Sem

theorem dense4_value (V : (c : Dev nD) → (b : Ref sig .tc) → Buf (Elt Ideal) ((c : Thread nD τ).loc b)) (c : Dev nD) :
    (dat4 (F := Ideal) V c).arrAt 2 cfg4.N
      = Cert.Gcn.denseK (V c (Pipeline.arrRef spec4 0)) (V c (Pipeline.arrRef spec4 1)) :=
  (dat4 (F := Ideal) V c).arrAt_eq_of_cover 2 _
    (fun t _ => funext fun j => dense_block _ _ t _ _ (fun _ => rfl) (fun _ => rfl) _ (after4_2 V c t) j)
    fun i => (rows_cover i).imp fun t h =>
      ⟨flush4_2 t, (congrArg (i ∈ ·) (View.set_slice_whole (Pipeline.arrRef spec4 2) _)).mpr h⟩

end Cert.KernelIdeal.Gen

end
-- ==== Proof.Region5.lean ====
import proofs.«431307_j60284160967392_2_alg».proof.Proof.Region1

namespace Cert.KernelIdeal.Gen

open Idealize.ShloMosaic Idealize.ShloMosaic.TcCoe Idealize.SL.Sem

theorem gather5_block : @out5_A_3 Ideal _ = fun _ _ _ _ _ _ _ _ _ _ x0 x1 x2 => gatherBlk x0 x1 x2 := by
  funext c i arg1 harg1 arg2 harg2 arg3 harg3 arg4 harg4 x0 x1 x2
  unfold out5_A_3
  rw [View.read_writes_eq_canon _ _ _ fun y => cover5_A_3 (y := y) ..]
  unfold kernelRun5_A
  rw [View.canon_unit_zero off00]
  simp only [View.readAt_eq_ld, harg2.read_unread, harg3.read_unread, View.ld_unit_zero (S := S2048x1) off00]
  exact gather_block harg1 (fun k => (st_k5_t1_succ (k := k) ..).trans (by unfold tripR_k5_t1 trip_k5_t1; rfl)) rfl x2

theorem gather5_value (V : (c : Dev nD) → (b : Ref sig .tc) → Buf (Elt Ideal) ((c : Thread nD τ).loc b)) (c : Dev nD) :
    (dat5 (F := Ideal) V c).arrAt 3 cfg5.N
      = Cert.Gcn.gatherK (V c (Pipeline.arrRef spec5 0)) (V c (Pipeline.arrRef spec5 1)) (V c (Pipeline.arrRef spec5 2)) :=
  (dat5 (F := Ideal) V c).arrAt_eq_of_cover 3 _ (fun t _ => by
    show (cfg5.win 3).cut (grid5.coords t) ((dat5 V c).after 3 t) = _
    rw [after5_3, outsAt5, gather5_block]
    exact gather_flushed _ _ _ t) gather_cover

end Cert.KernelIdeal.Gen
-- ==== Proof.Region6Step.lean ====
import proofs.«431307_j60284160967392_2_alg».proof.Proof.Region2Step

noncomputable section

namespace Cert.KernelIdeal.Gen

open Idealize.ShloMosaic Idealize.ShloMosaic.TcCoe Idealize.ShloMosaic.Tactic Idealize.ShloMosaic.ValueIdx Cert.Gcn
open Idealize.SL.Sem

section Point6
variable {F : FTy → Type} [FloatOps F] (c : Dev nD) (i : grid6.Coords) (a1 : Memref sig .tc .vmem S2048x128 .f32) (h1 : a1.IsWhole)
  (a2 : Memref sig .tc .vmem S1x2048 .i32) (h2 : a2.IsWhole) (a3 : Memref sig .tc .vmem S50176x128 .f32) (h3 : a3.IsWhole)

theorem k6_pb (𝒱 : Variants) (bd : Option 𝒱.V) (v3 : Vec F S1x2048 .i32) (v5 : Vec F S2048x128 .f32)
    (G : BufTy.Contents (Elt F) a3.view.ty) :
    pb_k6_t1 (F := F) 𝒱 c bd i a1 h1 a2 h2 a3 h3 v3 v5 G k6_t1_loop.trips
      = k2_pieces (a3.view.read (Elt F) G) v3 v5 k2_t1_loop.trips le_rfl :=
  k2_pb_eq a3.view G v3 v5 _ rfl
    (fun k => (pb_k6_t1_succ 𝒱 c bd i a1 h1 a2 h2 a3 h3 v3 v5 G k).trans (by unfold tripL_k6_t1 trip_k6_t1; rfl)) _ le_rfl

theorem out6_B_val (hc : ¬cond6_0 i) (x0 : Vec Ideal S2048x128 .f32) (x1 : Vec Ideal S1x2048 .i32)
    (xo : Vec Ideal S50176x128 .f32) :
    out6_B_2 (F := Ideal) c i a1 h1 a2 h2 a3 h3 hc x0 x1 xo = fun y => xo y + scatterBlk x0 x1 y := by
  unfold out6_B_2 kernelRun6_B
  dsimp only
  rw [k6_pb]
  simp only [View.readAt_eq_ld, h1.read_unread, h2.read_unread, h3.read_unread,
    View.ld_unit_zero (S := S1x2048) off00, View.ld_unit_zero (S := S2048x128) off00]
  exact funext (k2_final VO6_2 _ xo x1 x0)

theorem out6_A_val (hc : cond6_0 i) (x0 : Vec Ideal S2048x128 .f32) (x1 : Vec Ideal S1x2048 .i32) :
    out6_A_2 (F := Ideal) c i a1 h1 a2 h2 a3 h3 hc x0 x1 = fun y => 0 + scatterBlk x0 x1 y := by
  unfold out6_A_2 kernelRun6_A
  dsimp only
  sl_unfold_words
  rw [k6_pb, k2_zero _ k6_pay1 rfl, View.writes_append]
  simp only [View.readAt_eq_ld, h1.read_unread, h2.read_unread,
    View.ld_unit_zero (S := S1x2048) off00, View.ld_unit_zero (S := S2048x128) off00]
  exact funext (k2_final VO6_2 _ (fun _ => 0) x1 x0)

end Point6

section Steps6
variable (V : (c : Dev nD) → (b : Ref sig .tc) → Buf (Elt Ideal) ((c : Thread nD τ).loc b)) (c : Dev nD) (t : Fin cfg6.N)

theorem outsAt6_first (h0 : t.val % 391 = 0) :
    outsAt6 (F := Ideal) V c t.val t.isLt = fun i => 0 + scatterBlk (iblk6 V c 0 t) (iblk6 V c 1 t) i :=
  (outsAt6_A V c t h0).trans (out6_A_val c _ _ _ _ _ _ _ _ _ _)

theorem outsAt6_next (h0 : ¬ t.val % 391 = 0) :
    outsAt6 (F := Ideal) V c t.val t.isLt
      = fun i => outsAt6 (F := Ideal) V c (t.val - 1) (by omega) i + scatterBlk (iblk6 V c 0 t) (iblk6 V c 1 t) i :=
  (outsAt6_B V c t h0).trans (out6_B_val c _ _ _ _ _ _ _ _ _ _ _)

end Steps6

end Cert.KernelIdeal.Gen
-- ==== Proof.Region6.lean ====
import proofs.«431307_j60284160967392_2_alg».proof.Proof.Region2
import proofs.«431307_j60284160967392_2_alg».proof.Proof.Region6Step

noncomputable section

namespace Cert.KernelIdeal.Gen

open Idealize.ShloMosaic Idealize.ShloMosaic.TcCoe Idealize.ShloMosaic.ValueIdx Idealize.SL.Sem Cert.Gcn

section Region6
variable (V : (c : Dev nD) → (b : Ref sig .tc) → Buf (Elt Ideal) ((c : Thread nD τ).loc b)) (c : Dev nD)

theorem outsAt6_last (h : 390 < cfg6.N) :
    outsAt6 (F := Ideal) V c 390 h = scatterK (V c (Pipeline.arrRef spec6 0)) (V c (Pipeline.arrRef spec6 1)) :=
  scatter_acc N_6 _ _ (outsAt6 (F := Ideal) V c) (iblk6 (F := Ideal) V c 0) (iblk6 (F := Ideal) V c 1)
    (k2_blk (V c (Pipeline.arrRef spec6 0)) (V c (Pipeline.arrRef spec6 1))) (outsAt6_first V c) (outsAt6_next V c) h

theorem read6_last (G : S50176x128.Idx → EReal) (h : 390 < cfg6.N) :
    G = ((cfg6.win 2).blk ⟨390, h⟩).view.read (Elt Ideal) G := k2_read_last G ⟨390, h⟩

theorem scatter6_value :
    (dat6 (F := Ideal) V c).arrAt 2 cfg6.N
      = Cert.Gcn.scatterK (V c (Pipeline.arrRef spec6 0)) (V c (Pipeline.arrRef spec6 1)) :=
  arrAt_of_last (dat6 (F := Ideal) V c) 2 _ N_6 flush6_2
    (fun h => ((after6_2 V c ⟨390, h⟩).trans (outsAt6_last V c h)).trans (read6_last _ h))
    (fun h i => ⟨i, k2_emb_last ⟨390, h⟩ i⟩)

end Region6

end Cert.KernelIdeal.Gen
-- ==== Proof.Region7.lean ====
import proofs.«431307_j60284160967392_2_alg».proof.Proof.Region3

noncomputable section

namespace Cert.KernelIdeal.Gen

open Idealize.ShloMosaic Idealize.ShloMosaic.TcCoe Idealize.SL.Sem

theorem combine7_value (V : (c : Dev nD) → (b : Ref sig .tc) → Buf (Elt Ideal) ((c : Thread nD τ).loc b)) (c : Dev nD) :
    (dat7 (F := Ideal) V c).arrAt 4 cfg7.N
      = Cert.Gcn.combineK (V c (Pipeline.arrRef spec7 0)) (V c (Pipeline.arrRef spec7 1)) (V c (Pipeline.arrRef spec7 2)) (V c (Pipeline.arrRef spec7 3)) :=
  (dat7 (F := Ideal) V c).arrAt_eq_of_cover 4 _
    (fun t _ => funext fun j => combine_block _ _ _ _ t _ _ _ _ (fun _ => rfl) (fun _ => rfl) (fun _ => rfl) (fun _ => rfl) _
      (after7_4 V c t) j)
    fun i => (rows_cover i).imp fun t h =>
      ⟨flush7_4 t, (congrArg (i ∈ ·) (View.set_slice_whole (Pipeline.arrRef spec7 4) _)).mpr h⟩

end Cert.KernelIdeal.Gen

end
-- ==== Proof.Region8.lean ====
import proofs.«431307_j60284160967392_2_alg».proof.Proof.Region0

noncomputable section

namespace Cert.KernelIdeal.Gen

open Idealize.ShloMosaic Idealize.ShloMosaic.TcCoe Idealize.SL.Sem

theorem dense8_value (V : (c : Dev nD) → (b : Ref sig .tc) → Buf (Elt Ideal) ((c : Thread nD τ).loc b)) (c : Dev nD) :
    (dat8 (F := Ideal) V c).arrAt 2 cfg8.N
      = Cert.Gcn.denseK (V c (Pipeline.arrRef spec8 0)) (V c (Pipeline.arrRef spec8 1)) :=
  (dat8 (F := Ideal) V c).arrAt_eq_of_cover 2 _
    (fun t _ => funext fun j => dense_block _ _ t _ _ (fun _ => rfl) (fun _ => rfl) _ (after8_2 V c t) j)
    fun i => (rows_cover i).imp fun t h =>
      ⟨flush8_2 t, (congrArg (i ∈ ·) (View.set_slice_whole (Pipeline.arrRef spec8 2) _)).mpr h⟩

end Cert.KernelIdeal.Gen

end
-- ==== Proof.Region9.lean ====
import proofs.«431307_j60284160967392_2_alg».proof.Proof.Region1

namespace Cert.KernelIdeal.Gen

open Idealize.ShloMosaic Idealize.ShloMosaic.TcCoe Idealize.SL.Sem

theorem gather9_block : @out9_A_3 Ideal _ = fun _ _ _ _ _ _ _ _ _ _ x0 x1 x2 => gatherBlk x0 x1 x2 := by
  funext c i arg1 harg1 arg2 harg2 arg3 harg3 arg4 harg4 x0 x1 x2
  unfold out9_A_3
  rw [View.read_writes_eq_canon _ _ _ fun y => cover9_A_3 (y := y) ..]
  unfold kernelRun9_A
  rw [View.canon_unit_zero off00]
  simp only [View.readAt_eq_ld, harg2.read_unread, harg3.read_unread, View.ld_unit_zero (S := S2048x1) off00]
  exact gather_block harg1 (fun k => (st_k9_t1_succ (k := k) ..).trans (by unfold tripR_k9_t1 trip_k9_t1; rfl)) rfl x2

theorem gather9_value (V : (c : Dev nD) → (b : Ref sig .tc) → Buf (Elt Ideal) ((c : Thread nD τ).loc b)) (c : Dev nD) :
    (dat9 (F := Ideal) V c).arrAt 3 cfg9.N
      = Cert.Gcn.gatherK (V c (Pipeline.arrRef spec9 0)) (V c (Pipeline.arrRef spec9 1)) (V c (Pipeline.arrRef spec9 2)) :=
  (dat9 (F := Ideal) V c).arrAt_eq_of_cover 3 _ (fun t _ => by
    show (cfg9.win 3).cut (grid9.coords t) ((dat9 V c).after 3 t) = _
    rw [after9_3, outsAt9, gather9_block]
    exact gather_flushed _ _ _ t) gather_cover

end Cert.KernelIdeal.Gen
-- ==== Proof.Region10Step.lean ====
import proofs.«431307_j60284160967392_2_alg».proof.Proof.Region2Step

noncomputable section

namespace Cert.KernelIdeal.Gen

open Idealize.ShloMosaic Idealize.ShloMosaic.TcCoe Idealize.ShloMosaic.Tactic Idealize.ShloMosaic.ValueIdx Cert.Gcn
open Idealize.SL.Sem

section Point10
variable {F : FTy → Type} [FloatOps F] (c : Dev nD) (i : grid10.Coords) (a1 : Memref sig .tc .vmem S2048x128 .f32) (h1 : a1.IsWhole)
  (a2 : Memref sig .tc .vmem S1x2048 .i32) (h2 : a2.IsWhole) (a3 : Memref sig .tc .vmem S50176x128 .f32) (h3 : a3.IsWhole)

theorem k10_pb (𝒱 : Variants) (bd : Option 𝒱.V) (v3 : Vec F S1x2048 .i32) (v5 : Vec F S2048x128 .f32)
    (G : BufTy.Contents (Elt F) a3.view.ty) :
    pb_k10_t1 (F := F) 𝒱 c bd i a1 h1 a2 h2 a3 h3 v3 v5 G k10_t1_loop.trips
      = k2_pieces (a3.view.read (Elt F) G) v3 v5 k2_t1_loop.trips le_rfl :=
  k2_pb_eq a3.view G v3 v5 _ rfl
    (fun k => (pb_k10_t1_succ 𝒱 c bd i a1 h1 a2 h2 a3 h3 v3 v5 G k).trans (by unfold tripL_k10_t1 trip_k10_t1; rfl)) _ le_rfl

theorem out10_B_val (hc : ¬cond10_0 i) (x0 : Vec Ideal S2048x128 .f32) (x1 : Vec Ideal S1x2048 .i32)
    (xo : Vec Ideal S50176x128 .f32) :
    out10_B_2 (F := Ideal) c i a1 h1 a2 h2 a3 h3 hc x0 x1 xo = fun y => xo y + scatterBlk x0 x1 y := by
  unfold out10_B_2 kernelRun10_B
  dsimp only
  rw [k10_pb]
  simp only [View.readAt_eq_ld, h1.read_unread, h2.read_unread, h3.read_unread,
    View.ld_unit_zero (S := S1x2048) off00, View.ld_unit_zero (S := S2048x128) off00]
  exact funext (k2_final VO10_2 _ xo x1 x0)

theorem out10_A_val (hc : cond10_0 i) (x0 : Vec Ideal S2048x128 .f32) (x1 : Vec Ideal S1x2048 .i32) :
    out10_A_2 (F := Ideal) c i a1 h1 a2 h2 a3 h3 hc x0 x1 = fun y => 0 + scatterBlk x0 x1 y := by
  unfold out10_A_2 kernelRun10_A
  dsimp only
  sl_unfold_words
  rw [k10_pb, k2_zero _ k10_pay1 rfl, View.writes_append]
  simp only [View.readAt_eq_ld, h1.read_unread, h2.read_unread,
    View.ld_unit_zero (S := S1x2048) off00, View.ld_unit_zero (S := S2048x128) off00]
  exact funext (k2_final VO10_2 _ (fun _ => 0) x1 x0)

end Point10

section Steps10
variable (V : (c : Dev nD) → (b : Ref sig .tc) → Buf (Elt Ideal) ((c : Thread nD τ).loc b)) (c : Dev nD) (t : Fin cfg10.N)

theorem outsAt10_first (h0 : t.val % 391 = 0) :
    outsAt10 (F := Ideal) V c t.val t.isLt = fun i => 0 + scatterBlk (iblk10 V c 0 t) (iblk10 V c 1 t) i :=
  (outsAt10_A V c t h0).trans (out10_A_val c _ _ _ _ _ _ _ _ _ _)

theorem outsAt10_next (h0 : ¬ t.val % 391 = 0) :
    outsAt10 (F := Ideal) V c t.val t.isLt
      = fun i => outsAt10 (F := Ideal) V c (t.val - 1) (by omega) i + scatterBlk (iblk10 V c 0 t) (iblk10 V c 1 t) i :=
  (outsAt10_B V c t h0).trans (out10_B_val c _ _ _ _ _ _ _ _ _ _ _)

end Steps10

end Cert.KernelIdeal.Gen
-- ==== Proof.Region10.lean ====
import proofs.«431307_j60284160967392_2_alg».proof.Proof.Region2
import proofs.«431307_j60284160967392_2_alg».proof.Proof.Region10Step

noncomputable section

namespace Cert.KernelIdeal.Gen

open Idealize.ShloMosaic Idealize.ShloMosaic.TcCoe Idealize.ShloMosaic.ValueIdx Idealize.SL.Sem Cert.Gcn

section Region10
variable (V : (c : Dev nD) → (b : Ref sig .tc) → Buf (Elt Ideal) ((c : Thread nD τ).loc b)) (c : Dev nD)

theorem outsAt10_last (h : 390 < cfg10.N) :
    outsAt10 (F := Ideal) V c 390 h = scatterK (V c (Pipeline.arrRef spec10 0)) (V c (Pipeline.arrRef spec10 1)) :=
  scatter_acc N_10 _ _ (outsAt10 (F := Ideal) V c) (iblk10 (F := Ideal) V c 0) (iblk10 (F := Ideal) V c 1)
    (k2_blk (V c (Pipeline.arrRef spec10 0)) (V c (Pipeline.arrRef spec10 1))) (outsAt10_first V c) (outsAt10_next V c) h

theorem read10_last (G : S50176x128.Idx → EReal) (h : 390 < cfg10.N) :
    G = ((cfg10.win 2).blk ⟨390, h⟩).view.read (Elt Ideal) G := k2_read_last G ⟨390, h⟩

theorem scatter10_value :
    (dat10 (F := Ideal) V c).arrAt 2 cfg10.N
      = Cert.Gcn.scatterK (V c (Pipeline.arrRef spec10 0)) (V c (Pipeline.arrRef spec10 1)) :=
  arrAt_of_last (dat10 (F := Ideal) V c) 2 _ N_10 flush10_2
    (fun h => ((after10_2 V c ⟨390, h⟩).trans (outsAt10_last V c h)).trans (read10_last _ h))
    (fun h i => ⟨i, k2_emb_last ⟨390, h⟩ i⟩)

end Region10

end Cert.KernelIdeal.Gen
-- ==== Proof.Region11.lean ====
import proofs.«431307_j60284160967392_2_alg».proof.Proof.Region3

noncomputable section

namespace Cert.KernelIdeal.Gen

open Idealize.ShloMosaic Idealize.ShloMosaic.TcCoe Idealize.SL.Sem

theorem combine11_value (V : (c : Dev nD) → (b : Ref sig .tc) → Buf (Elt Ideal) ((c : Thread nD τ).loc b)) (c : Dev nD) :
    (dat11 (F := Ideal) V c).arrAt 4 cfg11.N
      = Cert.Gcn.combineK (V c (Pipeline.arrRef spec11 0)) (V c (Pipeline.arrRef spec11 1)) (V c (Pipeline.arrRef spec11 2)) (V c (Pipeline.arrRef spec11 3)) :=
  (dat11 (F := Ideal) V c).arrAt_eq_of_cover 4 _
    (fun t _ => funext fun j => combine_block _ _ _ _ t _ _ _ _ (fun _ => rfl) (fun _ => rfl) (fun _ => rfl) (fun _ => rfl) _
      (after11_4 V c t) j)
    fun i => (rows_cover i).imp fun t h =>
      ⟨flush11_4 t, (congrArg (i ∈ ·) (View.set_slice_whole (Pipeline.arrRef spec11 4) _)).mpr h⟩

end Cert.KernelIdeal.Gen

end
-- ==== Proof.Region12.lean ====
import proofs.«431307_j60284160967392_2_alg».proof.Proof.Entries
import proofs.«431307_j60284160967392_2_alg».proof.Proof.Gen.KernelIdeal.Frame
import Idealize.ShloMosaic.PureOps.Ideal.Laws
import Idealize.ShloMosaic.Lib.Pipeline.Value
import Idealize.ShloMosaic.Lib.ValueIdx

noncomputable section

namespace Cert.KernelIdeal.Gen

open Idealize.ShloMosaic Idealize.ShloMosaic.TcCoe Idealize.ShloMosaic.ValueIdx
open Idealize.ShloMosaic.Pipeline (Dat Cfg Window)

theorem pool12_pay_apply (v0 : Vec Ideal S1x50176 .i32) (v8 : Vec Ideal S50176x128 .f32) (g : Fin 64) (j : Fin 128) :
    k12_pay1 (F := Ideal) v0 v8 (ix2 g j)
      = ∑ n : Fin 50176, Cert.Gcn.hot (v0 (ix2 (0 : Fin 1) n)) (BitVec.ofNat 32 g.val) * v8 (ix2 n j) := by
  refine (matmul_plain_zero dot_S64x50176_S50176x128_S64x128_1_0_0_1_n_n rfl none _ _ g j).trans
    (Finset.sum_congr rfl fun n _ => ?_)
  rw [shapeCast_self, shapeCast_self]
  have hb : broadcastTo S64x50176 v0 broadcasts_S1x50176_S64x50176 (ix2 g n) = v0 (ix2 (0 : Fin 1) n) :=
    broadcastTo_apply v0 broadcasts_S1x50176_S64x50176 (ix2 g n) (ix2 (0 : Fin 1) n) (fun a => match a with
      | ⟨0, _⟩ => rfl
      | ⟨1, _⟩ => rfl)
  have hi : iota .tc S64x50176 32 [0] iota_S64x50176_d0_w32 (ix2 g n) = BitVec.ofNat 32 g.val :=
    iota_single_apply .tc S64x50176 32 0 iota_S64x50176_d0_w32 (ix2 g n)
  show FloatOps.sitofp (F := Ideal) .f32
      ((IntOp.cmpi .eq (broadcastTo S64x50176 v0 broadcasts_S1x50176_S64x50176 (ix2 g n))
        (iota .tc S64x50176 32 [0] iota_S64x50176_d0_w32 (ix2 g n))).setWidth 32) * v8 (ix2 n j) = _
  rw [hb, hi, hot_of_cmpi]

theorem pool12_pay_eq (v0 : Vec Ideal S1x50176 .i32) (v8 : Vec Ideal S50176x128 .f32) :
    (k12_pay1 (F := Ideal) v0 v8 : S64x128.Idx → EReal) = Cert.Gcn.poolK v8 v0 := by
  funext y
  obtain ⟨g, j, rfl⟩ : ∃ (g : Fin 64) (j : Fin 128), y = ix2 g j := ⟨y 0, y 1, eq_ix2 y⟩
  rw [pool12_pay_apply]
  unfold Cert.Gcn.poolK
  refine Finset.sum_congr rfl fun n _ => ?_
  rfl

variable (V : (c : Dev nD) → (b : Ref sig .tc) → Buf (Elt Ideal) ((c : Thread nD τ).loc b))

theorem pool12_blk_0 (c : Dev nD) :
    (iblk12 (F := Ideal) V c 0 t12_0 : S50176x128.Idx → EReal) = V c (Pipeline.arrRef spec12 0) := by
  unfold iblk12
  have hz' : (fun a => win12_0.index t12_0 a * main_v59.ty.shape.size a) = fun _ => 0 :=
    funext fun a => by fin_cases a <;> rfl
  exact Memref.read_access_unit_zero (Elt Ideal) main_v59 hz' (fun a => by rw [congrFun hz' a]; simp) _

theorem pool12_blk_1 (c : Dev nD) :
    (iblk12 (F := Ideal) V c 1 t12_0 : S1x50176.Idx → BitVec 32) = V c (Pipeline.arrRef spec12 1) := by
  unfold iblk12
  have hz' : (fun a => win12_1.index t12_0 a * main_v39.ty.shape.size a) = fun _ => 0 :=
    funext fun a => by fin_cases a <;> rfl
  exact Memref.read_access_unit_zero (Elt Ideal) main_v39 hz' (fun a => by rw [congrFun hz' a]; simp) _

theorem pool12_flushed (c : Dev nD) (t : Fin cfg12.N) :
    (dat12 (F := Ideal) V c).flushed 2 t
      = ((cfg12.win 2).blk t).view.read (Elt Ideal)
          (Cert.Gcn.poolK (V c (Pipeline.arrRef spec12 0)) (V c (Pipeline.arrRef spec12 1))) := by
  obtain rfl : t = t12_0 := fin_N12 t
  show (cfg12.win 2).cut (grid12.coords t12_0) ((dat12 V c).after 2 t12_0) = _
  rw [after12_2, pool12_blk_0, pool12_blk_1]
  unfold out12_2
  rw [View.canon_unit_zero off00]
  simp only [View.ld_unit_zero (S := S1x50176) off00, View.ld_unit_zero (S := S50176x128) off00]
  rw [pool12_pay_eq]
  have hz' : (fun a => win12_2.index t12_0 a * main_v60.ty.shape.size a) = fun _ => 0 :=
    funext fun a => by fin_cases a <;> rfl
  exact (Memref.read_access_unit_zero (Elt Ideal) main_v60 hz' (fun a => by rw [congrFun hz' a]; simp) _).symm

theorem pool12_value (c : Dev nD) :
    (dat12 (F := Ideal) V c).arrAt 2 cfg12.N
      = Cert.Gcn.poolK (V c (Pipeline.arrRef spec12 0)) (V c (Pipeline.arrRef spec12 1)) :=
  (dat12 (F := Ideal) V c).arrAt_eq_of_cover 2 _ (fun t _ => pool12_flushed V c t) fun i =>
    ⟨t12_0, flush12_2 t12_0, (congrArg (i ∈ ·) (View.set_slice_whole (Pipeline.arrRef spec12 2) _)).mpr
      (Rect.mem_set_unit.2 fun a => by
        have h0 : (i 0).val < 64 := (i 0).isLt
        have h1 : (i 1).val < 128 := (i 1).isLt
        obtain ⟨e0, e1⟩ : win12_2.index t12_0 (0 : Fin 2) = 0 ∧ win12_2.index t12_0 (1 : Fin 2) = 0 := by decide +kernel
        match a with
        | ⟨0, _⟩ => show win12_2.index t12_0 (0 : Fin 2) * 64 ≤ (i 0).val ∧ (i 0).val < win12_2.index t12_0 (0 : Fin 2) * 64 + 64; omega
        | ⟨1, _⟩ => show win12_2.index t12_0 (1 : Fin 2) * 128 ≤ (i 1).val ∧ (i 1).val < win12_2.index t12_0 (1 : Fin 2) * 128 + 128; omega)⟩

end Cert.KernelIdeal.Gen

end
-- ==== Proof.KernelChain.lean ====
import proofs.«431307_j60284160967392_2_alg».proof.Proof.SpecRef
import proofs.«431307_j60284160967392_2_alg».proof.Proof.Carry
import proofs.«431307_j60284160967392_2_alg».proof.Proof.Region0
import proofs.«431307_j60284160967392_2_alg».proof.Proof.Region1
import proofs.«431307_j60284160967392_2_alg».proof.Proof.Region2
import proofs.«431307_j60284160967392_2_alg».proof.Proof.Region3
import proofs.«431307_j60284160967392_2_alg».proof.Proof.Region4
import proofs.«431307_j60284160967392_2_alg».proof.Proof.Region5
import proofs.«431307_j60284160967392_2_alg».proof.Proof.Region6
import proofs.«431307_j60284160967392_2_alg».proof.Proof.Region7
import proofs.«431307_j60284160967392_2_alg».proof.Proof.Region8
import proofs.«431307_j60284160967392_2_alg».proof.Proof.Region9
import proofs.«431307_j60284160967392_2_alg».proof.Proof.Region10
import proofs.«431307_j60284160967392_2_alg».proof.Proof.Region11
import proofs.«431307_j60284160967392_2_alg».proof.Proof.Region12
import proofs.«431307_j60284160967392_2_alg».proof.Proof.Gen.KernelIdeal.Frame
import Idealize.ShloMosaic.Lib.StableHlo.Run
import Idealize.ShloMosaic.Lib.ValueLayout

noncomputable section

namespace Cert.KernelIdeal.Gen

open Idealize.ShloMosaic Idealize.ShloMosaic.TcCoe Idealize.ShloMosaic.Tactic Idealize.ShloMosaic.ValueIdx
open Idealize.SL Idealize.SL.Sem
open Cert.Gcn

theorem cast_eq_biasRow (x : (Sh1 128).Idx → EReal) (h : (Sh1 128).ShapeCasts (Sh2 1 128)) :
    (fun i => shapeCast (Sh2 1 128) x h i) = biasRow x := by
  funext i
  show shapeCast (Sh2 1 128) x h i = x (ix1 (col i))
  conv_lhs => rw [eq_ix2_row_col i]
  exact shapeCast_a_1a_apply x h (row i) (col i)

theorem exit0 (m : (ℓ : Loc nD τ sig) → Buf (Elt Ideal) ℓ) (ρ : Dev nD → PrngReg) (c : Dev nD) :
    W15 (F := Ideal) m ρ c (Proc.devRef .tc main_v45)
    = denseK (W14 m ρ c (Proc.devRef .tc main_v44))
        (m ((c : Thread nD τ).loc main_arg4)) := by
  rw [← arg_keep m ρ c main_arg4 (by decide)]
  exact (W15_arr m ρ c 2).trans (dense0_value (V14 m ρ) c)

theorem exit1 (m : (ℓ : Loc nD τ sig) → Buf (Elt Ideal) ℓ) (ρ : Dev nD → PrngReg) (c : Dev nD) :
    W16 (F := Ideal) m ρ c (Proc.devRef .tc main_v46)
    = gatherK (W15 m ρ c (Proc.devRef .tc main_v45))
        (W14 m ρ c (Proc.devRef .tc main_v31))
        (W14 m ρ c (Proc.devRef .tc main_v35)) := by
  rw [← late15 m ρ c main_v31 (by decide), ← late15 m ρ c main_v35 (by decide)]
  exact (W16_arr m ρ c 3).trans (gather1_value (V15 m ρ) c)

theorem exit2 (m : (ℓ : Loc nD τ sig) → Buf (Elt Ideal) ℓ) (ρ : Dev nD → PrngReg) (c : Dev nD) :
    W17 (F := Ideal) m ρ c (Proc.devRef .tc main_v47)
    = scatterK (W16 m ρ c (Proc.devRef .tc main_v46))
        (W14 m ρ c (Proc.devRef .tc main_v33)) := by
  rw [← late16 m ρ c main_v33 (by decide)]
  exact (W17_arr m ρ c 2).trans (scatter2_value (V16 m ρ) c)

theorem bias3 (m : (ℓ : Loc nD τ sig) → Buf (Elt Ideal) ℓ) (ρ : Dev nD → PrngReg) (c : Dev nD) :
    W18 (F := Ideal) m ρ c (Proc.devRef .tc main_v48) = biasRow (m ((c : Thread nD τ).loc main_arg5)) := by
  rw [← ((late17 m ρ c main_arg5 (by decide)).trans (arg_keep m ρ c main_arg5 (by decide)))]
  show StableHlo.after hostOps3 (W17 m ρ c) (Proc.devRef .tc main_v48) = _
  after_results
  exact cast_eq_biasRow _ _

theorem exit3 (m : (ℓ : Loc nD τ sig) → Buf (Elt Ideal) ℓ) (ρ : Dev nD → PrngReg) (c : Dev nD) :
    W19 (F := Ideal) m ρ c (Proc.devRef .tc main_v49)
    = combineK (W17 m ρ c (Proc.devRef .tc main_v47))
        (W15 m ρ c (Proc.devRef .tc main_v45))
        (W14 m ρ c (Proc.devRef .tc main_v37))
        (W18 m ρ c (Proc.devRef .tc main_v48)) := by
  rw [← keep18 m ρ c main_v47 (by decide), ← ((keep18 m ρ c main_v45 (by decide)).trans ((keep17 m ρ c main_v45 (by decide)).trans (keep16 m ρ c main_v45 (by decide)))), ← late18 m ρ c main_v37 (by decide)]
  exact (W19_arr m ρ c 4).trans (combine3_value (V18 m ρ) c)

theorem exit4 (m : (ℓ : Loc nD τ sig) → Buf (Elt Ideal) ℓ) (ρ : Dev nD → PrngReg) (c : Dev nD) :
    W20 (F := Ideal) m ρ c (Proc.devRef .tc main_v50)
    = denseK (W19 m ρ c (Proc.devRef .tc main_v49))
        (m ((c : Thread nD τ).loc main_arg6)) := by
  rw [← ((late19 m ρ c main_arg6 (by decide)).trans (arg_keep m ρ c main_arg6 (by decide)))]
  exact (W20_arr m ρ c 2).trans (dense4_value (V19 m ρ) c)

theorem exit5 (m : (ℓ : Loc nD τ sig) → Buf (Elt Ideal) ℓ) (ρ : Dev nD → PrngReg) (c : Dev nD) :
    W21 (F := Ideal) m ρ c (Proc.devRef .tc main_v51)
    = gatherK (W20 m ρ c (Proc.devRef .tc main_v50))
        (W14 m ρ c (Proc.devRef .tc main_v31))
        (W14 m ρ c (Proc.devRef .tc main_v35)) := by
  rw [← late20 m ρ c main_v31 (by decide), ← late20 m ρ c main_v35 (by decide)]
  exact (W21_arr m ρ c 3).trans (gather5_value (V20 m ρ) c)

theorem exit6 (m : (ℓ : Loc nD τ sig) → Buf (Elt Ideal) ℓ) (ρ : Dev nD → PrngReg) (c : Dev nD) :
    W22 (F := Ideal) m ρ c (Proc.devRef .tc main_v52)
    = scatterK (W21 m ρ c (Proc.devRef .tc main_v51))
        (W14 m ρ c (Proc.devRef .tc main_v33)) := by
  rw [← late21 m ρ c main_v33 (by decide)]
  exact (W22_arr m ρ c 2).trans (scatter6_value (V21 m ρ) c)

theorem bias7 (m : (ℓ : Loc nD τ sig) → Buf (Elt Ideal) ℓ) (ρ : Dev nD → PrngReg) (c : Dev nD) :
    W23 (F := Ideal) m ρ c (Proc.devRef .tc main_v53) = biasRow (m ((c : Thread nD τ).loc main_arg7)) := by
  rw [← ((late22 m ρ c main_arg7 (by decide)).trans (arg_keep m ρ c main_arg7 (by decide)))]
  show StableHlo.after hostOps7 (W22 m ρ c) (Proc.devRef .tc main_v53) = _
  after_results
  exact cast_eq_biasRow _ _

theorem exit7 (m : (ℓ : Loc nD τ sig) → Buf (Elt Ideal) ℓ) (ρ : Dev nD → PrngReg) (c : Dev nD) :
    W24 (F := Ideal) m ρ c (Proc.devRef .tc main_v54)
    = combineK (W22 m ρ c (Proc.devRef .tc main_v52))
        (W20 m ρ c (Proc.devRef .tc main_v50))
        (W14 m ρ c (Proc.devRef .tc main_v37))
        (W23 m ρ c (Proc.devRef .tc main_v53)) := by
  rw [← keep23 m ρ c main_v52 (by decide), ← ((keep23 m ρ c main_v50 (by decide)).trans ((keep22 m ρ c main_v50 (by decide)).trans (keep21 m ρ c main_v50 (by decide)))), ← late23 m ρ c main_v37 (by decide)]
  exact (W24_arr m ρ c 4).trans (combine7_value (V23 m ρ) c)

theorem exit8 (m : (ℓ : Loc nD τ sig) → Buf (Elt Ideal) ℓ) (ρ : Dev nD → PrngReg) (c : Dev nD) :
    W25 (F := Ideal) m ρ c (Proc.devRef .tc main_v55)
    = denseK (W24 m ρ c (Proc.devRef .tc main_v54))
        (m ((c : Thread nD τ).loc main_arg8)) := by
  rw [← ((late24 m ρ c main_arg8 (by decide)).trans (arg_keep m ρ c main_arg8 (by decide)))]
  exact (W25_arr m ρ c 2).trans (dense8_value (V24 m ρ) c)

theorem exit9 (m : (ℓ : Loc nD τ sig) → Buf (Elt Ideal) ℓ) (ρ : Dev nD → PrngReg) (c : Dev nD) :
    W26 (F := Ideal) m ρ c (Proc.devRef .tc main_v56)
    = gatherK (W25 m ρ c (Proc.devRef .tc main_v55))
        (W14 m ρ c (Proc.devRef .tc main_v31))
        (W14 m ρ c (Proc.devRef .tc main_v35)) := by
  rw [← late25 m ρ c main_v31 (by decide), ← late25 m ρ c main_v35 (by decide)]
  exact (W26_arr m ρ c 3).trans (gather9_value (V25 m ρ) c)

theorem exit10 (m : (ℓ : Loc nD τ sig) → Buf (Elt Ideal) ℓ) (ρ : Dev nD → PrngReg) (c : Dev nD) :
    W27 (F := Ideal) m ρ c (Proc.devRef .tc main_v57)
    = scatterK (W26 m ρ c (Proc.devRef .tc main_v56))
        (W14 m ρ c (Proc.devRef .tc main_v33)) := by
  rw [← late26 m ρ c main_v33 (by decide)]
  exact (W27_arr m ρ c 2).trans (scatter10_value (V26 m ρ) c)

theorem bias11 (m : (ℓ : Loc nD τ sig) → Buf (Elt Ideal) ℓ) (ρ : Dev nD → PrngReg) (c : Dev nD) :
    W28 (F := Ideal) m ρ c (Proc.devRef .tc main_v58) = biasRow (m ((c : Thread nD τ).loc main_arg9)) := by
  rw [← ((late27 m ρ c main_arg9 (by decide)).trans (arg_keep m ρ c main_arg9 (by decide)))]
  show StableHlo.after hostOps11 (W27 m ρ c) (Proc.devRef .tc main_v58) = _
  after_results
  exact cast_eq_biasRow _ _

theorem exit11 (m : (ℓ : Loc nD τ sig) → Buf (Elt Ideal) ℓ) (ρ : Dev nD → PrngReg) (c : Dev nD) :
    W29 (F := Ideal) m ρ c (Proc.devRef .tc main_v59)
    = combineK (W27 m ρ c (Proc.devRef .tc main_v57))
        (W25 m ρ c (Proc.devRef .tc main_v55))
        (W14 m ρ c (Proc.devRef .tc main_v37))
        (W28 m ρ c (Proc.devRef .tc main_v58)) := by
  rw [← keep28 m ρ c main_v57 (by decide), ← ((keep28 m ρ c main_v55 (by decide)).trans ((keep27 m ρ c main_v55 (by decide)).trans (keep26 m ρ c main_v55 (by decide)))), ← late28 m ρ c main_v37 (by decide)]
  exact (W29_arr m ρ c 4).trans (combine11_value (V28 m ρ) c)

theorem exit12 (m : (ℓ : Loc nD τ sig) → Buf (Elt Ideal) ℓ) (ρ : Dev nD → PrngReg) (c : Dev nD) :
    W30 (F := Ideal) m ρ c (Proc.devRef .tc main_v60)
    = poolK (W29 m ρ c (Proc.devRef .tc main_v59))
        (W14 m ρ c (Proc.devRef .tc main_v39)) := by
  rw [← late29 m ρ c main_v39 (by decide)]
  exact (W30_arr m ρ c 2).trans (pool12_value (V29 m ρ) c)

theorem pooled_value (m : (ℓ : Loc nD τ sig) → Buf (Elt Ideal) ℓ) (ρ : Dev nD → PrngReg) (c : Dev nD) :
    W30 (F := Ideal) m ρ c (Proc.devRef .tc main_v60)
      = Cert.Gcn.netK (W14 m ρ c (Proc.devRef .tc main_v44))
          (m ((c : Thread nD τ).loc main_arg4)) (Cert.Gcn.biasRow (m ((c : Thread nD τ).loc main_arg5)))
          (m ((c : Thread nD τ).loc main_arg6)) (Cert.Gcn.biasRow (m ((c : Thread nD τ).loc main_arg7)))
          (m ((c : Thread nD τ).loc main_arg8)) (Cert.Gcn.biasRow (m ((c : Thread nD τ).loc main_arg9)))
          (W14 m ρ c (Proc.devRef .tc main_v31)) (W14 m ρ c (Proc.devRef .tc main_v35)) (W14 m ρ c (Proc.devRef .tc main_v33))
          (W14 m ρ c (Proc.devRef .tc main_v37)) (W14 m ρ c (Proc.devRef .tc main_v39)) := by
  unfold netK layerK
  rw [exit12 m ρ c, exit11 m ρ c, bias11 m ρ c, exit10 m ρ c, exit9 m ρ c, exit8 m ρ c,
    exit7 m ρ c, bias7 m ρ c, exit6 m ρ c, exit5 m ρ c, exit4 m ρ c,
    exit3 m ρ c, bias3 m ρ c, exit2 m ρ c, exit1 m ρ c, exit0 m ρ c]

end Cert.KernelIdeal.Gen

end
-- ==== Proof.Algebra.lean ====
import proofs.«431307_j60284160967392_2_alg».proof.Proof.SpecRef
import Mathlib.Algebra.BigOperators.Fin

noncomputable section

namespace Cert.Gcn

open Idealize.ShloMosaic Idealize.ShloMosaic.ValueIdx

theorem ofNat_inj32 {a b : Nat} (ha : a < 2 ^ 32) (hb : b < 2 ^ 32)
    (h : BitVec.ofNat 32 a = BitVec.ofNat 32 b) : a = b := by
  have h' := congrArg BitVec.toNat h
  rw [BitVec.toNat_ofNat, BitVec.toNat_ofNat, Nat.mod_eq_of_lt ha, Nat.mod_eq_of_lt hb] at h'
  exact h'

theorem toInt_ofNat_small {n : Nat} (h : n < 2 ^ 31) : (BitVec.ofNat 32 n).toInt = (n : ℤ) := by
  have h32 : n < 2 ^ 32 := by omega
  rw [BitVec.toInt_eq_toNat_cond, BitVec.toNat_ofNat, Nat.mod_eq_of_lt h32, if_pos (by omega)]

theorem hot_mul_eq_ite (d : BitVec 32) {n : Nat} (h : n < 2 ^ 31) (u : EReal) :
    hot d (BitVec.ofNat 32 n) * u = if d.toInt = (n : ℤ) then u else 0 := by
  by_cases hd : d = BitVec.ofNat 32 n
  · subst hd
    rw [hot_self, one_mul, if_pos (toInt_ofNat_small h)]
  · rw [hot_ne hd, zero_mul, if_neg]
    intro h'
    exact hd (BitVec.eq_of_toInt_eq (h'.trans (toInt_ofNat_small h).symm))

theorem sum_fin_castLE {M : Type*} [AddCommMonoid M] {a N : Nat} (h : a ≤ N) (f : Fin N → M)
    (hz : ∀ i : Fin N, a ≤ i.val → f i = 0) :
    ∑ i : Fin N, f i = ∑ i : Fin a, f (Fin.castLE h i) := by
  obtain ⟨b, rfl⟩ := Nat.exists_eq_add_of_le h
  rw [Fin.sum_univ_add, Finset.sum_eq_zero (fun i _ => hz (Fin.natAdd a i) (Nat.le_add_right a i.val)), add_zero]
  rfl

theorem sum_hot_pick {N : Nat} (hN : N ≤ 2 ^ 32) (m : Fin N) (f : Fin N → EReal) :
    ∑ n : Fin N, hot (BitVec.ofNat 32 m.val) (BitVec.ofNat 32 n.val) * f n = f m := by
  rw [Finset.sum_eq_single m]
  · rw [hot_self, one_mul]
  · intro n _ hn
    rw [hot_ne, zero_mul]
    intro h
    have hm := m.isLt
    have hn' := n.isLt
    exact hn (Fin.ext (ofNat_inj32 (by omega) (by omega) h).symm)
  · intro h
    exact absurd (Finset.mem_univ m) h

abbrev up (n : Fin 50000) : Fin 50176 := Fin.castLE (by omega) n

abbrev upE (e : Fin 800000) : Fin 800768 := Fin.castLE (by omega) e

theorem padRowsF_up (x : (Sh2 50000 128).Idx → EReal) (n : Fin 50000) (j : Fin 128) :
    padRowsF x (ix2 (up n) j) = x (ix2 n j) := by
  unfold padRowsF
  exact dif_pos (show (row (ix2 (up n) j)).val < 50000 from n.isLt)

theorem padColI_upE (v : (Sh1 800000).Idx → BitVec 32) (e : Fin 800000) :
    padColI v (ix2 (upE e) (0 : Fin 1)) = v (ix1 e) := by
  unfold padColI
  exact dif_pos (show (row (ix2 (upE e) (0 : Fin 1))).val < 800000 from e.isLt)

theorem padColF_upE (v : (Sh1 800000).Idx → EReal) (e : Fin 800000) :
    padColF v (ix2 (upE e) (0 : Fin 1)) = v (ix1 e) := by
  unfold padColF
  exact dif_pos (show (row (ix2 (upE e) (0 : Fin 1))).val < 800000 from e.isLt)

theorem padColF_pad (v : (Sh1 800000).Idx → EReal) (e : Fin 800768) (he : 800000 ≤ e.val) :
    padColF v (ix2 e (0 : Fin 1)) = 0 := by
  unfold padColF
  exact dif_neg (show ¬ (row (ix2 e (0 : Fin 1))).val < 800000 from Nat.not_lt.mpr he)

theorem padRowI_upE (v : (Sh1 800000).Idx → BitVec 32) (e : Fin 800000) :
    padRowI v (ix2 (0 : Fin 1) (upE e)) = v (ix1 e) := by
  unfold padRowI
  exact dif_pos (show (col (ix2 (0 : Fin 1) (upE e))).val < 800000 from e.isLt)

theorem padNodeColF_up (v : (Sh1 50000).Idx → EReal) (n : Fin 50000) :
    padNodeColF v (ix2 (up n) (0 : Fin 1)) = v (ix1 n) := by
  unfold padNodeColF
  exact dif_pos (show (row (ix2 (up n) (0 : Fin 1))).val < 50000 from n.isLt)

theorem padBatch_up (v : (Sh1 50000).Idx → BitVec 32) (n : Fin 50000) :
    padBatch v (ix2 (0 : Fin 1) (up n)) = v (ix1 n) := by
  unfold padBatch
  exact dif_pos (show (col (ix2 (0 : Fin 1) (up n))).val < 50000 from n.isLt)

theorem padBatch_pad (v : (Sh1 50000).Idx → BitVec 32) (n : Fin 50176) (hn : 50000 ≤ n.val) :
    padBatch v (ix2 (0 : Fin 1) n) = 64#32 := by
  unfold padBatch
  exact dif_neg (show ¬ (col (ix2 (0 : Fin 1) n)).val < 50000 from Nat.not_lt.mpr hn)

def Agree (H : (Sh2 50176 128).Idx → EReal) (h : (Sh2 50000 128).Idx → EReal) : Prop :=
  ∀ (n : Fin 50000) (j : Fin 128), H (ix2 (up n) j) = h (ix2 n j)

theorem denseK_up {H : (Sh2 50176 128).Idx → EReal} {h : (Sh2 50000 128).Idx → EReal} (hA : Agree H h)
    (w : (Sh2 128 128).Idx → EReal) (n : Fin 50000) (j : Fin 128) :
    denseK H w (ix2 (up n) j) = denseR h w (ix2 n j) := by
  show ∑ k : Fin 128, H (ix2 (up n) k) * w (ix2 k j) = ∑ k : Fin 128, h (ix2 n k) * w (ix2 k j)
  exact Finset.sum_congr rfl (fun k _ => by rw [hA n k])

theorem gatherK_upE (D : (Sh2 50176 128).Idx → EReal) (src : (Sh1 800000).Idx → BitVec 32)
    (nrm : (Sh1 800000).Idx → EReal) (gi : Fin 800000 → Fin 50000)
    (hgi : ∀ e : Fin 800000, src (ix1 e) = BitVec.ofNat 32 (gi e).val) (e : Fin 800000) (j : Fin 128) :
    gatherK D (padColI src) (padColF nrm) (ix2 (upE e) j) = D (ix2 (up (gi e)) j) * nrm (ix1 e) := by
  show (∑ n : Fin 50176, hot (padColI src (ix2 (upE e) (0 : Fin 1))) (BitVec.ofNat 32 n.val) * D (ix2 n j))
      * padColF nrm (ix2 (upE e) (0 : Fin 1)) = _
  rw [padColI_upE, padColF_upE, hgi e]
  exact congrArg (fun s => s * nrm (ix1 e))
    (sum_hot_pick (N := 50176) (by norm_num) (up (gi e)) (fun n => D (ix2 n j)))

theorem gatherK_pad (D : (Sh2 50176 128).Idx → EReal) (src : (Sh2 800768 1).Idx → BitVec 32)
    (nrm : (Sh1 800000).Idx → EReal) (e : Fin 800768) (he : 800000 ≤ e.val) (j : Fin 128) :
    gatherK D src (padColF nrm) (ix2 e j) = 0 := by
  show (∑ n : Fin 50176, hot (src (ix2 e (0 : Fin 1))) (BitVec.ofNat 32 n.val) * D (ix2 n j))
      * padColF nrm (ix2 e (0 : Fin 1)) = 0
  rw [padColF_pad nrm e he, mul_zero]

theorem scatterK_up (msg : (Sh2 800768 128).Idx → EReal) (dst : (Sh1 800000).Idx → BitVec 32)
    (hpad : ∀ e : Fin 800768, 800000 ≤ e.val → ∀ j : Fin 128, msg (ix2 e j) = 0) (n : Fin 50000) (j : Fin 128) :
    scatterK msg (padRowI dst) (ix2 (up n) j)
      = ∑ e : Fin 800000, if (dst (ix1 e)).toInt = (n.val : ℤ) then msg (ix2 (upE e) j) else 0 := by
  show ∑ e : Fin 800768, hot (padRowI dst (ix2 (0 : Fin 1) e)) (BitVec.ofNat 32 n.val) * msg (ix2 e j) = _
  have hz : ∀ e : Fin 800768, 800000 ≤ e.val →
      hot (padRowI dst (ix2 (0 : Fin 1) e)) (BitVec.ofNat 32 n.val) * msg (ix2 e j) = 0 :=
    fun e he => by rw [hpad e he j, mul_zero]
  refine (sum_fin_castLE (a := 800000) (by norm_num)
    (fun e : Fin 800768 => hot (padRowI dst (ix2 (0 : Fin 1) e)) (BitVec.ofNat 32 n.val) * msg (ix2 e j)) hz).trans ?_
  refine Finset.sum_congr rfl (fun e _ => ?_)
  show hot (padRowI dst (ix2 (0 : Fin 1) (upE e))) (BitVec.ofNat 32 n.val) * msg (ix2 (upE e) j) = _
  rw [padRowI_upE]
  have hn := n.isLt
  exact hot_mul_eq_ite _ (by omega) _

theorem layer_agree {H : (Sh2 50176 128).Idx → EReal} {h : (Sh2 50000 128).Idx → EReal} (hA : Agree H h)
    (w : (Sh2 128 128).Idx → EReal) (b : (Sh1 128).Idx → EReal)
    (src dst : (Sh1 800000).Idx → BitVec 32) (nrm : (Sh1 800000).Idx → EReal) (ss : (Sh1 50000).Idx → EReal)
    (gi : Fin 800000 → Fin 50000) (hgi : ∀ e : Fin 800000, src (ix1 e) = BitVec.ofNat 32 (gi e).val) :
    Agree (layerK H w (biasRow b) (padColI src) (padColF nrm) (padRowI dst) (padNodeColF ss))
      (layerR h w b gi nrm dst ss) := by
  intro n j
  show max (scatterK (gatherK (denseK H w) (padColI src) (padColF nrm)) (padRowI dst) (ix2 (up n) j)
        + denseK H w (ix2 (up n) j) * padNodeColF ss (ix2 (up n) (0 : Fin 1)) + b (ix1 j)) 0
     = max (aggR (msgR (denseR h w) gi nrm) dst (ix2 n j) + denseR h w (ix2 n j) * ss (ix1 n) + b (ix1 j)) 0
  have hagg : aggR (msgR (denseR h w) gi nrm) dst (ix2 n j)
      = ∑ e : Fin 800000, if (dst (ix1 e)).toInt = (n.val : ℤ)
          then gatherK (denseK H w) (padColI src) (padColF nrm) (ix2 (upE e) j) else 0 := by
    show 0 + ∑ e : Fin 800000, (if (dst (ix1 e)).toInt = (n.val : ℤ)
        then denseR h w (ix2 (gi e) j) * nrm (ix1 e) else 0) = _
    rw [zero_add]
    refine Finset.sum_congr rfl (fun e _ => ?_)
    rw [gatherK_upE _ _ _ gi hgi, denseK_up hA]
  rw [scatterK_up _ _ (fun e he j => gatherK_pad _ _ _ e he j), denseK_up hA, padNodeColF_up, hagg]

theorem pool_agree {H : (Sh2 50176 128).Idx → EReal} {h : (Sh2 50000 128).Idx → EReal} (hA : Agree H h)
    (batch : (Sh1 50000).Idx → BitVec 32) : poolK H (padBatch batch) = poolR h batch := by
  funext i
  obtain ⟨g, j, rfl⟩ : ∃ (g : Fin 64) (j : Fin 128), i = ix2 g j := ⟨_, _, eq_ix2 i⟩
  show ∑ n : Fin 50176, hot (padBatch batch (ix2 (0 : Fin 1) n)) (BitVec.ofNat 32 g.val) * H (ix2 n j)
     = 0 + ∑ n : Fin 50000, if (batch (ix1 n)).toInt = (g.val : ℤ) then h (ix2 n j) else 0
  have hg := g.isLt
  have hz : ∀ n : Fin 50176, 50000 ≤ n.val →
      hot (padBatch batch (ix2 (0 : Fin 1) n)) (BitVec.ofNat 32 g.val) * H (ix2 n j) = 0 := by
    intro n hn
    rw [padBatch_pad batch n hn, hot_ne, zero_mul]
    intro h'
    have := ofNat_inj32 (a := 64) (b := g.val) (by norm_num) (by omega) h'
    omega
  rw [zero_add]
  refine (sum_fin_castLE (a := 50000) (by norm_num)
    (fun n : Fin 50176 => hot (padBatch batch (ix2 (0 : Fin 1) n)) (BitVec.ofNat 32 g.val) * H (ix2 n j)) hz).trans ?_
  refine Finset.sum_congr rfl (fun n _ => ?_)
  show hot (padBatch batch (ix2 (0 : Fin 1) (up n))) (BitVec.ofNat 32 g.val) * H (ix2 (up n) j) = _
  rw [padBatch_up, hA n j]
  exact hot_mul_eq_ite _ (by omega) _

theorem netK_eq_netR
    (x : (Sh2 50000 128).Idx → EReal) (w1 : (Sh2 128 128).Idx → EReal) (b1 : (Sh1 128).Idx → EReal)
    (w2 : (Sh2 128 128).Idx → EReal) (b2 : (Sh1 128).Idx → EReal) (w3 : (Sh2 128 128).Idx → EReal) (b3 : (Sh1 128).Idx → EReal)
    (src dst : (Sh1 800000).Idx → BitVec 32) (nrm : (Sh1 800000).Idx → EReal) (ss : (Sh1 50000).Idx → EReal)
    (batch : (Sh1 50000).Idx → BitVec 32) (gi : Fin 800000 → Fin 50000)
    (hgi : ∀ e : Fin 800000, src (ix1 e) = BitVec.ofNat 32 (gi e).val) :
    netK (padRowsF x) w1 (biasRow b1) w2 (biasRow b2) w3 (biasRow b3) (padColI src) (padColF nrm) (padRowI dst) (padNodeColF ss) (padBatch batch)
      = netR x w1 b1 w2 b2 w3 b3 gi nrm dst ss batch := by
  have h0 : Agree (padRowsF x) x := fun n j => padRowsF_up x n j
  have h1 := layer_agree h0 w1 b1 src dst nrm ss gi hgi
  have h2 := layer_agree h1 w2 b2 src dst nrm ss gi hgi
  have h3 := layer_agree h2 w3 b3 src dst nrm ss gi hgi
  exact pool_agree h3 batch

end Cert.Gcn

end
-- ==== Proof.RefOps.lean ====
import proofs.«431307_j60284160967392_2_alg».proof.ReferenceIdeal
import proofs.«431307_j60284160967392_2_alg».proof.Proof.Spec
import Idealize.ShloMosaic.Lib.ValueIdx
import Idealize.ShloMosaic.PureOps.Ideal

noncomputable section

namespace Cert.ReferenceIdeal.RefOps

open Idealize.ShloMosaic Idealize.ShloMosaic.ValueIdx
open Cert.ReferenceIdeal
open scoped BigOperators

variable [Cert.ReferenceIdeal.Facts]

theorem gather_rows_siIdx (j : S800000x128.Idx) (c : Fin gather_S50000x128_S800000x1_S800000x128_1_0_n_n_0_1_1128.startIndexMap.length) :
    gather_S50000x128_S800000x1_S800000x128_1_0_n_n_0_1_1128.siIdx j c = ix2 (Cert.Gcn.row j) (0 : Fin 1) := by
  funext b; refine Fin.ext ?_
  have hc : c.val = 0 := by
    have := c.isLt
    simpa [gather_S50000x128_S800000x1_S800000x128_1_0_n_n_0_1_1128] using this
  match b with
  | ⟨0, _⟩ => rfl
  | ⟨1, _⟩ => exact hc

theorem gather_rows_apply (x : S50000x128.Idx → EReal) (idx : IVec S800000x1 32) (i : S800000x128.Idx) :
    Host.gather gather_S50000x128_S800000x1_S800000x128_1_0_n_n_0_1_1128 x idx i
      = x (ix2 (⟨min (idx (ix2 (Cert.Gcn.row i) (0 : Fin 1))).toInt.toNat 49999, by omega⟩ : Fin 50000) (Cert.Gcn.col i)) := by
  unfold Host.gather
  congr 1
  funext a
  refine Fin.ext ?_
  match a with
  | ⟨0, h0⟩ =>
    show gather_S50000x128_S800000x1_S800000x128_1_0_n_n_0_1_1128.start i idx ⟨0, h0⟩
        + gather_S50000x128_S800000x1_S800000x128_1_0_n_n_0_1_1128.batchCoord i ⟨0, h0⟩
        + gather_S50000x128_S800000x1_S800000x128_1_0_n_n_0_1_1128.offCoord i ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S50000x128.rank) ∈ gather_S50000x128_S800000x1_S800000x128_1_0_n_n_0_1_1128.startIndexMap from
      List.mem_singleton.mpr rfl)]
    rw [gather_rows_siIdx]
    rfl
  | ⟨1, h1⟩ =>
    show gather_S50000x128_S800000x1_S800000x128_1_0_n_n_0_1_1128.start i idx ⟨1, h1⟩
        + gather_S50000x128_S800000x1_S800000x128_1_0_n_n_0_1_1128.batchCoord i ⟨1, h1⟩
        + gather_S50000x128_S800000x1_S800000x128_1_0_n_n_0_1_1128.offCoord i ⟨1, h1⟩ = _
    rw [GatherDims.batchCoord_eq_zero _ _ _ List.not_mem_nil]
    have hs : gather_S50000x128_S800000x1_S800000x128_1_0_n_n_0_1_1128.start i idx ⟨1, h1⟩ = 0 := by
      unfold GatherDims.start
      rw [dif_neg (show (⟨1, h1⟩ : Fin S50000x128.rank) ∉ gather_S50000x128_S800000x1_S800000x128_1_0_n_n_0_1_1128.startIndexMap from by
        intro h; exact absurd (congrArg Fin.val (List.mem_singleton.mp h)) (by decide : ¬ (1 : ℕ) = 0))]
    rw [hs]
    simp only [Nat.zero_add, Nat.add_zero]
    rfl

section Rows
variable {N E C w : Nat}

abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

theorem rows_siIdx (j : (Cert.Gcn.Sh2 E C).Idx) (c : Fin (rowsDims N E C wf).scatterDimsToOperandDims.length) :
    (rowsDims N E C wf).siIdx j c = ix2 (Cert.Gcn.row j) (0 : Fin 1) := by
  funext b; refine Fin.ext ?_
  have hc : c.val = 0 := by
    have := c.isLt
    simpa using this
  match b with
  | ⟨0, _⟩ => rfl
  | ⟨1, _⟩ => exact hc

theorem rows_start0 (j : (Cert.Gcn.Sh2 E C).Idx) (idx : IVec ⟨2, ![E, 1]⟩ w) (h0 : 0 < 2) :
    (rowsDims N E C wf).start j idx ⟨0, h0⟩ = (idx (ix2 (Cert.Gcn.row j) (0 : Fin 1))).toInt := by
  unfold ScatterDims.start
  rw [dif_pos (show (⟨0, h0⟩ : Fin 2) ∈ (rowsDims N E C wf).scatterDimsToOperandDims from List.mem_singleton.mpr rfl),
    rows_siIdx]

theorem rows_start1 (j : (Cert.Gcn.Sh2 E C).Idx) (idx : IVec ⟨2, ![E, 1]⟩ w) (h1 : 1 < 2) :
    (rowsDims N E C wf).start j idx ⟨1, h1⟩ = 0 := by
  unfold ScatterDims.start
  rw [dif_neg (show (⟨1, h1⟩ : Fin 2) ∉ (rowsDims N E C wf).scatterDimsToOperandDims from by
    intro h; exact absurd (congrArg Fin.val (List.mem_singleton.mp h)) (by decide : ¬ (1 : ℕ) = 0))]

theorem rows_window0 (j : (Cert.Gcn.Sh2 E C).Idx) (h0 : 0 < 2) : (rowsDims N E C wf).window j ⟨0, h0⟩ = 0 := by
  unfold ScatterDims.window
  rw [dif_neg (show (⟨0, h0⟩ : Fin 2) ∉ (rowsDims N E C wf).sKept from by
    simp [ScatterDims.sKept, Shape.kept, List.mem_filter])]

theorem rows_window1 (j : (Cert.Gcn.Sh2 E C).Idx) (h1 : 1 < 2) : (rowsDims N E C wf).window j ⟨1, h1⟩ = (Cert.Gcn.col j).val := by
  unfold ScatterDims.window
  rw [dif_pos (show (⟨1, h1⟩ : Fin 2) ∈ (rowsDims N E C wf).sKept from by
    simp [ScatterDims.sKept, Shape.kept, List.mem_filter, List.mem_finRange])]
  rfl

theorem rows_resultIdx?_eq_some_iff (j : (Cert.Gcn.Sh2 E C).Idx) (idx : IVec ⟨2, ![E, 1]⟩ w) (i : (Cert.Gcn.Sh2 N C).Idx) :
    (rowsDims N E C wf).resultIdx? j idx = some i
      ↔ (idx (ix2 (Cert.Gcn.row j) (0 : Fin 1))).toInt = ((Cert.Gcn.row i).val : ℤ) ∧ Cert.Gcn.col j = Cert.Gcn.col i := by
  have hi0 : ∀ h : 0 < (Cert.Gcn.Sh2 N C).rank, (i ⟨0, h⟩).val = (Cert.Gcn.row i).val := fun h =>
    congrArg Fin.val (congrFun (Cert.Gcn.eq_ix2_row_col i) ⟨0, h⟩)
  have hi1 : ∀ h : 1 < (Cert.Gcn.Sh2 N C).rank, (i ⟨1, h⟩).val = (Cert.Gcn.col i).val := fun h =>
    congrArg Fin.val (congrFun (Cert.Gcn.eq_ix2_row_col i) ⟨1, h⟩)
  have hr : (Cert.Gcn.row i).val < N := (Cert.Gcn.row i).isLt
  have hc : (Cert.Gcn.col i).val < C := (Cert.Gcn.col i).isLt
  unfold ScatterDims.resultIdx?
  constructor
  · intro h
    split at h
    · rename_i hb
      have hi := Option.some.inj h
      have e0 : ((rowsDims N E C wf).start j idx ⟨0, Nat.zero_lt_two⟩
          + ((rowsDims N E C wf).window j ⟨0, Nat.zero_lt_two⟩ : ℤ)).toNat = (i ⟨0, Nat.zero_lt_two⟩).val :=
        congrArg (fun f => (f ⟨0, Nat.zero_lt_two⟩).val) hi
      have e1 : ((rowsDims N E C wf).start j idx ⟨1, Nat.one_lt_two⟩
          + ((rowsDims N E C wf).window j ⟨1, Nat.one_lt_two⟩ : ℤ)).toNat = (i ⟨1, Nat.one_lt_two⟩).val :=
        congrArg (fun f => (f ⟨1, Nat.one_lt_two⟩).val) hi
      have b0 : 0 ≤ (rowsDims N E C wf).start j idx ⟨0, Nat.zero_lt_two⟩
          + ((rowsDims N E C wf).window j ⟨0, Nat.zero_lt_two⟩ : ℤ) := (hb ⟨0, Nat.zero_lt_two⟩).1
      rw [rows_start0, rows_window0] at e0 b0
      rw [hi0] at e0
      rw [rows_start1, rows_window1, hi1] at e1
      refine ⟨?_, Fin.ext ?_⟩
      · omega
      · omega
    · exact absurd h (by simp)
  · rintro ⟨h0, h1⟩
    have h1' : (Cert.Gcn.col j).val = (Cert.Gcn.col i).val := congrArg Fin.val h1
    have hb : ∀ a, 0 ≤ (rowsDims N E C wf).start j idx a + ((rowsDims N E C wf).window j a : ℤ)
        ∧ (rowsDims N E C wf).start j idx a + ((rowsDims N E C wf).window j a : ℤ) < ((⟨2, ![N, C]⟩ : Shape).size a : ℕ) := by
      intro a
      match a with
      | ⟨0, _⟩ =>
        rw [rows_start0, rows_window0, h0]
        show _ ∧ _ < ((N : ℕ) : ℤ)
        omega
      | ⟨1, _⟩ =>
        rw [rows_start1, rows_window1, h1']
        show _ ∧ _ < ((C : ℕ) : ℤ)
        omega
    have key : ∀ a, ((rowsDims N E C wf).start j idx a + ((rowsDims N E C wf).window j a : ℤ)).toNat = (i a).val := by
      intro a
      match a with
      | ⟨0, hlt⟩ =>
        rw [hi0 hlt, rows_start0, rows_window0, h0]
        omega
      | ⟨1, hlt⟩ =>
        rw [hi1 hlt, rows_start1, rows_window1, h1']
        omega
    rw [dif_pos hb]
    exact congrArg some (funext fun a => Fin.ext (key a))

theorem rows_hostScatterAdd_apply (x : (Cert.Gcn.Sh2 N C).Idx → EReal) (idx : IVec ⟨2, ![E, 1]⟩ w)
    (upd : (Cert.Gcn.Sh2 E C).Idx → EReal) (i : (Cert.Gcn.Sh2 N C).Idx) :
    Ideal.hostScatterAdd (rowsDims N E C wf) x idx upd i
      = x i + ∑ e : Fin E, if (idx (ix2 e (0 : Fin 1))).toInt = ((Cert.Gcn.row i).val : ℤ) then upd (ix2 e (Cert.Gcn.col i)) else 0 := by
  unfold Ideal.hostScatterAdd
  congr 1
  rw [Finset.sum_filter, sum_idx2]
  refine Finset.sum_congr rfl fun e _ => ?_
  simp only [rows_resultIdx?_eq_some_iff]
  have hrow : ∀ c : Fin C, Cert.Gcn.row (ix2 e c) = e := fun c => Fin.ext rfl
  have hcol : ∀ c : Fin C, Cert.Gcn.col (ix2 e c) = c := fun c => Fin.ext rfl
  simp only [hrow, hcol]
  by_cases he : (idx (ix2 e (0 : Fin 1))).toInt = ((Cert.Gcn.row i).val : ℤ)
  · simp only [he, true_and, if_true]
    rw [Finset.sum_ite_eq' Finset.univ (Cert.Gcn.col i) (fun c => upd (ix2 e c))]
    simp
  · simp only [he, false_and, if_false]
    exact Finset.sum_const_zero

end Rows

theorem scatterAdd_rows_apply (x : S50000x128.Idx → EReal) (idx : IVec S800000x1 32) (upd : S800000x128.Idx → EReal)
    (i : S50000x128.Idx) :
    Host.scatterAdd (F := Ideal) (φ := .f32) scatter_S50000x128_S800000x1_S800000x128_1_0_0_1 x idx upd i
      = x i + ∑ e : Fin 800000, if (idx (ix2 e (0 : Fin 1))).toInt = ((Cert.Gcn.row i).val : ℤ) then upd (ix2 e (Cert.Gcn.col i)) else 0 :=
  rows_hostScatterAdd_apply (N := 50000) (E := 800000) (C := 128)
    scatter_S50000x128_S800000x1_S800000x128_1_0_0_1.wf x idx upd i

theorem scatterAdd_graphs_apply (x : S64x128.Idx → EReal) (idx : IVec S50000x1 32) (upd : S50000x128.Idx → EReal)
    (i : S64x128.Idx) :
    Host.scatterAdd (F := Ideal) (φ := .f32) scatter_S64x128_S50000x1_S50000x128_1_0_0_1 x idx upd i
      = x i + ∑ n : Fin 50000, if (idx (ix2 n (0 : Fin 1))).toInt = ((Cert.Gcn.row i).val : ℤ) then upd (ix2 n (Cert.Gcn.col i)) else 0 :=
  rows_hostScatterAdd_apply (N := 64) (E := 50000) (C := 128)
    scatter_S64x128_S50000x1_S50000x128_1_0_0_1.wf x idx upd i

end Cert.ReferenceIdeal.RefOps

end
-- ==== Proof.RefLayer.lean ====
import proofs.«431307_j60284160967392_2_alg».proof.ReferenceIdeal
import proofs.«431307_j60284160967392_2_alg».proof.Proof.Gen.ReferenceIdeal
import proofs.«431307_j60284160967392_2_alg».proof.Proof.SpecRef
import proofs.«431307_j60284160967392_2_alg».proof.Proof.RefOps
import Idealize.ShloMosaic.Lib.Pipeline.Value
import Idealize.ShloMosaic.Lib.ValueIdx
import Idealize.ShloMosaic.PureOps.Ideal.Laws
import Idealize.ShloMosaic.Lib.StackMember

noncomputable section

namespace Cert.ReferenceIdeal.RefValue

open Idealize.ShloMosaic Idealize.ShloMosaic.ValueIdx
open Cert.ReferenceIdeal Cert.ReferenceIdeal.Gen
open scoped BigOperators

section Bcast
variable {α : Type}

theorem bcast_col_apply {a : Nat} (ha : a ≠ 1)
    (h : (⟨1, ![a]⟩ : Shape).BroadcastsInDim ⟨2, ![a, 1]⟩ (![0] : Fin 1 → Fin 2)) (v : (⟨1, ![a]⟩ : Shape).Idx → α)
    (e : Fin a) (u : Fin 1) : broadcastInDim ⟨2, ![a, 1]⟩ ![0] h v (ix2 e u) = v (ix1 e) :=
  broadcastInDim_apply _ h v (ix2 e u) (ix1 e) (fun c => match c with
    | ⟨0, _⟩ => by show e.val = if a = 1 then 0 else e.val; rw [if_neg ha])

theorem bcast_rows_apply {a b : Nat} (ha : a ≠ 1)
    (h : (⟨2, ![a, 1]⟩ : Shape).BroadcastsInDim ⟨2, ![a, b]⟩ (![0, 1] : Fin 2 → Fin 2)) (v : (⟨2, ![a, 1]⟩ : Shape).Idx → α)
    (e : Fin a) (j : Fin b) : broadcastInDim ⟨2, ![a, b]⟩ ![0, 1] h v (ix2 e j) = v (ix2 e (0 : Fin 1)) :=
  broadcastInDim_apply _ h v (ix2 e j) (ix2 e (0 : Fin 1)) (fun c => match c with
    | ⟨0, _⟩ => by show e.val = if a = 1 then 0 else e.val; rw [if_neg ha]
    | ⟨1, _⟩ => by show 0 = if (1 : Nat) = 1 then 0 else j.val; rw [if_pos rfl])

theorem bcast_row_apply {b : Nat} (hb : b ≠ 1)
    (h : (⟨1, ![b]⟩ : Shape).BroadcastsInDim ⟨2, ![1, b]⟩ (![1] : Fin 1 → Fin 2)) (v : (⟨1, ![b]⟩ : Shape).Idx → α)
    (u : Fin 1) (j : Fin b) : broadcastInDim ⟨2, ![1, b]⟩ ![1] h v (ix2 u j) = v (ix1 j) :=
  broadcastInDim_apply _ h v (ix2 u j) (ix1 j) (fun c => match c with
    | ⟨0, _⟩ => by show j.val = if b = 1 then 0 else j.val; rw [if_neg hb])

end Bcast

theorem dense_eq (x : FVec Ideal S50000x128 .f32) (w : FVec Ideal S128x128 .f32) :
    Host.dotGeneral (F := Ideal) dot_S50000x128_S128x128_S50000x128_1_0_0_1_n_n none x w = Cert.Gcn.denseR x w := by
  funext i
  obtain ⟨a, b, rfl⟩ : ∃ (a : Fin 50000) (b : Fin 128), i = ix2 a b := ⟨i 0, i 1, eq_ix2 i⟩
  exact StackMember.dotGeneral_plain_apply none x w a b

def giOf (gw : IVec S800000 32) : Fin 800000 → Fin 50000 :=
  fun e => ⟨min (gw (ix1 e)).toInt.toNat 49999, by omega⟩

def layerOps (hin : FVec Ideal S50000x128 .f32) (w : FVec Ideal S128x128 .f32) (b : FVec Ideal S128 .f32)
    (gw dw : IVec S800000 32) (nrm : FVec Ideal S800000 .f32) (ss : FVec Ideal S50000 .f32) : FVec Ideal S50000x128 .f32 :=
  maximumf
    (addf
      (addf
        (Host.scatterAdd scatter_S50000x128_S800000x1_S800000x128_1_0_0_1
          (broadcastInDim S50000x128 ![] bcast_S_S50000x128 (constant S_ .f32 0x00000000#32))
          (broadcastInDim S800000x1 ![0] bcast_S800000_S800000x1_0 dw)
          (mulf
            (Host.gather gather_S50000x128_S800000x1_S800000x128_1_0_n_n_0_1_1128
              (Host.dotGeneral dot_S50000x128_S128x128_S50000x128_1_0_0_1_n_n none hin w)
              (broadcastInDim S800000x1 ![0] bcast_S800000_S800000x1_0 gw))
            (broadcastInDim S800000x128 ![0, 1] bcast_S800000x1_S800000x128_0_1
              (broadcastInDim S800000x1 ![0] bcast_S800000_S800000x1_0 nrm))))
        (mulf (Host.dotGeneral dot_S50000x128_S128x128_S50000x128_1_0_0_1_n_n none hin w)
          (broadcastInDim S50000x128 ![0, 1] bcast_S50000x1_S50000x128_0_1
            (broadcastInDim S50000x1 ![0] bcast_S50000_S50000x1_0 ss))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

theorem zero_splat_apply {t : Shape} (h : S_.BroadcastsInDim t (![] : Fin 0 → Fin t.rank)) (j : t.Idx) :
    broadcastInDim t ![] h (constant (F := Ideal) S_ .f32 0x00000000#32) j = (0 : EReal) :=
  (broadcastInDim_apply _ h _ j ix0 fun a => a.elim0).trans Ideal.ofBits_zero_f32

theorem msg_eq (d : FVec Ideal S50000x128 .f32) (gw : IVec S800000 32) (nrm : FVec Ideal S800000 .f32) :
    mulf (Host.gather gather_S50000x128_S800000x1_S800000x128_1_0_n_n_0_1_1128 d
        (broadcastInDim S800000x1 ![0] bcast_S800000_S800000x1_0 gw))
      (broadcastInDim S800000x128 ![0, 1] bcast_S800000x1_S800000x128_0_1
        (broadcastInDim S800000x1 ![0] bcast_S800000_S800000x1_0 nrm))
      = Cert.Gcn.msgR d (giOf gw) nrm := by
  funext i
  obtain ⟨e, j, rfl⟩ : ∃ (e : Fin 800000) (j : Fin 128), i = ix2 e j := ⟨i 0, i 1, eq_ix2 i⟩
  refine (mulf_apply _ _ _).trans ?_
  rw [Cert.ReferenceIdeal.RefOps.gather_rows_apply, bcast_rows_apply (by decide), bcast_col_apply (by decide) _ nrm e 0]
  simp only [bcast_col_apply (a := 800000) (by decide) _ gw]
  rfl

theorem agg_eq (u : FVec Ideal S800000x128 .f32) (dw : IVec S800000 32) :
    Host.scatterAdd scatter_S50000x128_S800000x1_S800000x128_1_0_0_1
      (broadcastInDim S50000x128 ![] bcast_S_S50000x128 (constant S_ .f32 0x00000000#32))
      (broadcastInDim S800000x1 ![0] bcast_S800000_S800000x1_0 dw) u
      = Cert.Gcn.aggR u dw := by
  funext i
  unfold Cert.Gcn.aggR
  rw [Cert.ReferenceIdeal.RefOps.scatterAdd_rows_apply, zero_splat_apply]
  refine congrArg (fun s => (0 : EReal) + s) (Finset.sum_congr rfl fun e _ => ?_)
  rw [bcast_col_apply (by decide)]

theorem combine_eq (a d : FVec Ideal S50000x128 .f32) (ss : FVec Ideal S50000 .f32) (b : FVec Ideal S128 .f32) :
    maximumf
      (addf (addf a (mulf d (broadcastInDim S50000x128 ![0, 1] bcast_S50000x1_S50000x128_0_1 (broadcastInDim S50000x1 ![0] bcast_S50000_S50000x1_0 ss))))
        (broadcastInDim S50000x128 ![0, 1] bcast_S1x128_S50000x128_0_1 (broadcastInDim S1x128 ![1] bcast_S128_S1x128_1 b)))
      (broadcastInDim S50000x128 ![] bcast_S_S50000x128 (constant S_ .f32 0x00000000#32))
    = Cert.Gcn.combineR a d ss b := by
  funext i
  obtain ⟨n, j, rfl⟩ : ∃ (n : Fin 50000) (j : Fin 128), i = ix2 n j := ⟨i 0, i 1, eq_ix2 i⟩
  unfold Cert.Gcn.combineR
  dsimp only [maximumf_apply, addf_apply, mulf_apply]
  rw [zero_splat_apply, broadcastInDim_oneRow_apply, bcast_row_apply (by decide), bcast_rows_apply (by decide), bcast_col_apply (by decide)]

theorem layerOps_eq (hin : FVec Ideal S50000x128 .f32) (w : FVec Ideal S128x128 .f32) (b : FVec Ideal S128 .f32)
    (gw dw : IVec S800000 32) (nrm : FVec Ideal S800000 .f32) (ss : FVec Ideal S50000 .f32) :
    layerOps hin w b gw dw nrm ss = Cert.Gcn.layerR hin w b (giOf gw) nrm dw ss := by
  unfold layerOps Cert.Gcn.layerR
  rw [dense_eq, msg_eq, agg_eq, combine_eq]

def poolOps (h3 : FVec Ideal S50000x128 .f32) (batch : IVec S50000 32) : FVec Ideal S64x128 .f32 :=
  Host.scatterAdd scatter_S64x128_S50000x1_S50000x128_1_0_0_1
    (broadcastInDim S64x128 ![] bcast_S_S64x128 (constant S_ .f32 0x00000000#32))
    (broadcastInDim S50000x1 ![0] bcast_S50000_S50000x1_0 batch) h3

theorem poolOps_eq (h3 : FVec Ideal S50000x128 .f32) (batch : IVec S50000 32) :
    poolOps h3 batch = Cert.Gcn.poolR h3 batch := by
  funext i
  unfold poolOps Cert.Gcn.poolR
  rw [Cert.ReferenceIdeal.RefOps.scatterAdd_graphs_apply, zero_splat_apply]
  refine congrArg (fun s => (0 : EReal) + s) (Finset.sum_congr rfl fun n _ => ?_)
  rw [bcast_col_apply (by decide)]

def tailR (pooled : FVec Ideal S64x128 .f32) (cnt : FVec Ideal S64 .f32) (fcw : FVec Ideal S128x2 .f32) (fcb : FVec Ideal S2 .f32) :
    FVec Ideal S64x2 .f32 :=
  addf
    (Host.dotGeneral dot_S64x128_S128x2_S64x2_1_0_0_1_n_n none
      (Host.divf pooled
        (broadcastInDim S64x128 ![0, 1] bcast_S64x1_S64x128_0_1
          (broadcastInDim S64x1 ![0] bcast_S64_S64x1_0
            (maximumf cnt (broadcastInDim S64 ![] bcast_S_S64 (constant S_ .f32 0x3F800000#32))))))
      fcw)
    (broadcastInDim S64x2 ![0, 1] bcast_S1x2_S64x2_0_1 (broadcastInDim S1x2 ![1] bcast_S2_S1x2_1 fcb))

end Cert.ReferenceIdeal.RefValue

end
-- ==== Proof.RefRead.lean ====
import proofs.«431307_j60284160967392_2_alg».proof.Proof.Gen.ReferenceIdeal.Run
import proofs.«431307_j60284160967392_2_alg».proof.Proof.Gen.ReferenceIdeal.Read
import proofs.«431307_j60284160967392_2_alg».proof.Proof.SpecRef
import proofs.«431307_j60284160967392_2_alg».proof.Proof.RefLayer

noncomputable section

namespace Cert.ReferenceIdeal.RefValue

open Idealize.ShloMosaic Idealize.ShloMosaic.ValueIdx
open Cert.ReferenceIdeal Cert.ReferenceIdeal.Gen Cert.ReferenceIdeal.Read

def nrmR (ei : IVec S2x800000 32) (ew : FVec Ideal S800000 .f32) : FVec Ideal S800000 .f32 := val_main_v29 (F := Ideal) ei ew

def ssR (ei : IVec S2x800000 32) (ew : FVec Ideal S800000 .f32) : FVec Ideal S50000 .f32 := val_main_v43 (F := Ideal) ei ew

def cntR (batch : IVec S50000 32) : FVec Ideal S64 .f32 := val_main_v151 (F := Ideal) batch

def giR (ei : IVec S2x800000 32) : Fin 800000 → Fin 50000 := giOf (val_main_v34 (F := Ideal) ei)

theorem dst_eq (ei : IVec S2x800000 32) : val_main_v3 (F := Ideal) ei = Cert.Gcn.dstOf ei := by
  funext i
  rw [val_main_v3_apply, val_main_v2_apply]
  refine congrArg ei (funext fun a => Fin.ext ?_)
  match a with
  | ⟨0, _⟩ => rfl
  | ⟨1, _⟩ => exact Nat.mod_eq_of_lt (i 0).isLt

-- The stages unfold to three layers over the same index, coefficient and self-weight arrays, then the pooling and the tail.
theorem result_eq (a0 : FVec Ideal S50000x128 .f32) (a1 : IVec S2x800000 32) (a2 : FVec Ideal S800000 .f32) (a3 : IVec S50000 32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S128x2 .f32) (a11 : FVec Ideal S2 .f32) :
    val_main_v163 (F := Ideal) a0 a1 a2 a3 a4 a5 a6 a7 a8 a9 a10 a11
      = tailR (Cert.Gcn.netR a0 a4 a5 a6 a7 a8 a9 (giR a1) (nrmR a1 a2) (Cert.Gcn.dstOf a1) (ssR a1 a2) a3) (cntR a3) a10 a11 := by
  show tailR (poolOps (layerOps (layerOps (layerOps a0 a4 a5 _ (val_main_v3 (F := Ideal) a1) _ _) a6 a7 _ (val_main_v3 (F := Ideal) a1) _ _)
    a8 a9 _ (val_main_v3 (F := Ideal) a1) _ _) a3) _ a10 a11 = _
  rw [layerOps_eq, layerOps_eq, layerOps_eq, poolOps_eq, dst_eq]
  rfl

end Cert.ReferenceIdeal.RefValue

end
-- ==== Proof.PreSrc.lean ====
import proofs.«431307_j60284160967392_2_alg».proof.Pre_finite_inputs
import Idealize.ShloMosaic.Lib.ReduceAll
import Idealize.ShloMosaic.Lib.StableHlo.Predicate
import Idealize.ShloMosaic.Lib.Pipeline.Value
import Idealize.ShloMosaic.Lib.ValueIdx
import Idealize.ShloMosaic.Lib.WordArith

noncomputable section

namespace Cert.Pre_finite_inputs

open Idealize.ShloMosaic Idealize.ShloMosaic.ValueIdx

variable [Facts]
open Facts

instance : Subsingleton S_.Idx := ⟨fun a b => funext fun d => d.elim0⟩

theorem row0_read (a1 : IVec S2x800000 32) (e : Fin 800000) :
    shapeCast S800000 (extractStridedSlice S1x800000 ![0, 0] a1 slices_S2x800000_S1x800000_0_0) shapeCasts_S1x800000_S800000 (ix1 e)
      = a1 (ix2 (0 : Fin 2) e) := by
  refine (shapeCast_apply _ shapeCasts_S1x800000_S800000 (ix1 e) (ix2 (0 : Fin 1) e) ?_).trans ?_
  · rw [Shape.rowMajor_val_two, Shape.rowMajor_val_one]
    show (0 : Nat) * 800000 + e.val = e.val
    omega
  · refine extractStridedSlice_apply _ a1 slices_S2x800000_S1x800000_0_0 (ix2 (0 : Fin 1) e) (ix2 (0 : Fin 2) e) ?_
    intro a
    match a with
    | ⟨0, _⟩ => rfl
    | ⟨1, _⟩ => show e.val = 0 + e.val; omega

theorem word_range (w : BitVec 32) (h0 : IntOp.cmpi .sge w 0#32 = 1#1) (h1 : IntOp.cmpi .slt w 50000#32 = 1#1) :
    w.toNat < 50000 := by
  unfold IntOp.cmpi at h0 h1
  rw [StableHlo.Predicate.ofBool_eq_one_iff] at h0 h1
  exact WordArith.toNat_lt_of_zero_sle_of_slt_ofNat w 50000 (by decide) h0 h1

theorem word_toInt (w : BitVec 32) (hw : w.toNat < 50000) : w.toInt = w.toNat :=
  StableHlo.Predicate.toInt_eq_toNat_of_lt (by omega)

theorem word_toInt_toNat (w : BitVec 32) (hw : w.toNat < 50000) : w.toInt.toNat = w.toNat := by
  rw [word_toInt w hw]; exact Int.toNat_natCast _

theorem word_ofNat_toNat (w : BitVec 32) : w = BitVec.ofNat 32 w.toNat := by
  apply BitVec.eq_of_toNat_eq
  rw [BitVec.toNat_ofNat]
  exact (Nat.mod_eq_of_lt w.isLt).symm

theorem word_not_slt_zero (w : BitVec 32) (hw : w.toNat < 50000) : ¬ (w.slt 0#32 = true) := by
  rw [BitVec.slt_eq_decide, decide_eq_true_eq, word_toInt w hw]
  have e0 : (0#32 : BitVec 32).toInt = 0 := by decide
  rw [e0]
  omega

theorem word_slt_zero (w : BitVec 32) (hw : w.toNat < 50000) : w.slt 0#32 = false := by
  have := word_not_slt_zero w hw
  cases h : w.slt 0#32
  · rfl
  · exact absurd h this

theorem word_cmpi_slt_zero (w : BitVec 32) (hw : w.toNat < 50000) : IntOp.cmpi .slt w 0#32 = 0#1 := by
  unfold IntOp.cmpi
  show BitVec.ofBool (w.slt 0#32) = 0#1
  rw [word_slt_zero w hw]
  rfl

theorem src_toNat_lt_of_pre {F : FTy → Type} [FloatOps F] (a0 : FVec F S50000x128 .f32) (a1 : IVec S2x800000 32) (a2 : FVec F S800000 .f32) (a3 : IVec S50000 32)
    (a4 : FVec F S128x128 .f32) (a5 : FVec F S128 .f32) (a6 : FVec F S128x128 .f32) (a7 : FVec F S128 .f32)
    (a8 : FVec F S128x128 .f32) (a9 : FVec F S128 .f32) (a10 : FVec F S128x2 .f32) (a11 : FVec F S2 .f32)
    (h : fn (F := F) a0 a1 a2 a3 a4 a5 a6 a7 a8 a9 a10 a11 = fun _ => 1#1) (e : Fin 800000) :
    (a1 (ix2 (0 : Fin 2) e)).toNat < 50000 := by
  have e0 := congrFun h ix0
  dsimp only [fn, fn_part1, fn_part2, fn_part3] at e0
  have e1 := (IntOp.andi_eq_one.1 e0).2
  have e2 := Host.reduce_andi_all _ _ _ _ _ e1 (ix1 e)
  obtain ⟨h0, h1⟩ := IntOp.andi_eq_one.1 e2
  have h0' : IntOp.cmpi .sge (a1 (ix2 (0 : Fin 2) e)) 0#32 = 1#1 := by rw [← row0_read a1 e]; exact h0
  have h1' : IntOp.cmpi .slt (a1 (ix2 (0 : Fin 2) e)) 50000#32 = 1#1 := by rw [← row0_read a1 e]; exact h1
  exact word_range _ h0' h1'

end Cert.Pre_finite_inputs

end
-- ==== Proof.SrcIndex.lean ====
import proofs.«431307_j60284160967392_2_alg».proof.Proof.PreSrc
import proofs.«431307_j60284160967392_2_alg».proof.Proof.RefRead
import proofs.«431307_j60284160967392_2_alg».proof.Proof.SpecRef

noncomputable section

namespace Cert.SrcIndex

open Idealize.ShloMosaic Idealize.ShloMosaic.ValueIdx
open Cert.ReferenceIdeal Cert.ReferenceIdeal.Gen Cert.ReferenceIdeal.Read

variable [Cert.Pre_finite_inputs.Facts]

theorem v1_read {F : FTy → Type} [FloatOps F] (x1 : IVec S2x800000 32) (e : Fin 800000) :
    val_main_v1 (F := F) x1 (ix1 e) = x1 (ix2 (0 : Fin 2) e) := by
  rw [val_main_v1_apply, val_main_v0_apply]
  refine congrArg x1 (funext fun a => ?_)
  match a with
  | ⟨0, _⟩ => rfl
  | ⟨1, _⟩ => exact Fin.ext (Nat.mod_eq_of_lt e.isLt)

theorem v34_read {F : FTy → Type} [FloatOps F] (x1 : IVec S2x800000 32) (e : Fin 800000)
    (hw : (x1 (ix2 (0 : Fin 2) e)).toNat < 50000) :
    val_main_v34 (F := F) x1 (ix1 e) = x1 (ix2 (0 : Fin 2) e) := by
  rw [val_main_v34_apply, val_main_v31_apply, v1_read, val_main_v30_apply, val_main_c_6_apply,
    Cert.Pre_finite_inputs.word_cmpi_slt_zero _ hw]
  exact if_neg (by decide)

theorem giR_val_of_lt (x1 : IVec S2x800000 32) (e : Fin 800000) (hw : (x1 (ix2 (0 : Fin 2) e)).toNat < 50000) :
    (Cert.ReferenceIdeal.RefValue.giR x1 e).val = (x1 (ix2 (0 : Fin 2) e)).toNat := by
  show min ((val_main_v34 (F := Ideal) x1 (ix1 e)).toInt.toNat) 49999 = _
  rw [v34_read x1 e hw, Cert.Pre_finite_inputs.word_toInt_toNat _ hw]
  omega

theorem srcOf_eq_giR_of_lt (x1 : IVec S2x800000 32) (e : Fin 800000) (hw : (x1 (ix2 (0 : Fin 2) e)).toNat < 50000) :
    Cert.Gcn.srcOf x1 (ix1 e) = BitVec.ofNat 32 (Cert.ReferenceIdeal.RefValue.giR x1 e).val := by
  rw [giR_val_of_lt x1 e hw]
  exact Cert.Pre_finite_inputs.word_ofNat_toNat _

theorem srcOf_eq_giR
    (a0 : FVec Ideal Cert.Pre_finite_inputs.S50000x128 .f32) (a1 : IVec Cert.Pre_finite_inputs.S2x800000 32)
    (a2 : FVec Ideal Cert.Pre_finite_inputs.S800000 .f32) (a3 : IVec Cert.Pre_finite_inputs.S50000 32)
    (a4 : FVec Ideal Cert.Pre_finite_inputs.S128x128 .f32) (a5 : FVec Ideal Cert.Pre_finite_inputs.S128 .f32)
    (a6 : FVec Ideal Cert.Pre_finite_inputs.S128x128 .f32) (a7 : FVec Ideal Cert.Pre_finite_inputs.S128 .f32)
    (a8 : FVec Ideal Cert.Pre_finite_inputs.S128x128 .f32) (a9 : FVec Ideal Cert.Pre_finite_inputs.S128 .f32)
    (a10 : FVec Ideal Cert.Pre_finite_inputs.S128x2 .f32) (a11 : FVec Ideal Cert.Pre_finite_inputs.S2 .f32)
    (h : Cert.Pre_finite_inputs.fn (F := Ideal) a0 a1 a2 a3 a4 a5 a6 a7 a8 a9 a10 a11 = fun _ => 1#1) (e : Fin 800000) :
    Cert.Gcn.srcOf a1 (ix1 e) = BitVec.ofNat 32 (Cert.ReferenceIdeal.RefValue.giR a1 e).val :=
  srcOf_eq_giR_of_lt a1 e (Cert.Pre_finite_inputs.src_toNat_lt_of_pre a0 a1 a2 a3 a4 a5 a6 a7 a8 a9 a10 a11 h e)

end Cert.SrcIndex

end
-- ==== Proof.Shared.lean ====
import proofs.«431307_j60284160967392_2_alg».proof.Proof.RefRead
import proofs.«431307_j60284160967392_2_alg».proof.Proof.KernelHostDefs

noncomputable section

namespace Cert.Shared

open Idealize.ShloMosaic

theorem nrmK_eq_nrmR (ei : IVec Cert.KernelIdeal.S2x800000 32) (ew : FVec Ideal Cert.KernelIdeal.S800000 .f32) :
    Cert.KernelIdeal.Gen.nrmK ei ew = Cert.ReferenceIdeal.RefValue.nrmR ei ew := rfl

theorem ssK_eq_ssR (ei : IVec Cert.KernelIdeal.S2x800000 32) (ew : FVec Ideal Cert.KernelIdeal.S800000 .f32) :
    Cert.KernelIdeal.Gen.ssK ei ew = Cert.ReferenceIdeal.RefValue.ssR ei ew := rfl

theorem cntK_eq_cntR (batch : IVec Cert.KernelIdeal.S50000 32) :
    Cert.KernelIdeal.Gen.cntK batch = Cert.ReferenceIdeal.RefValue.cntR batch := rfl

theorem tailK_eq_tailR (pooled : FVec Ideal Cert.KernelIdeal.S64x128 .f32) (cnt : FVec Ideal Cert.KernelIdeal.S64 .f32)
    (fcw : FVec Ideal Cert.KernelIdeal.S128x2 .f32) (fcb : FVec Ideal Cert.KernelIdeal.S2 .f32) :
    Cert.KernelIdeal.Gen.tailK pooled cnt fcw fcb = Cert.ReferenceIdeal.RefValue.tailR pooled cnt fcw fcb := rfl

end Cert.Shared

end
-- ==== Proof.lean ====
import proofs.«431307_j60284160967392_2_alg».proof.Defs
import proofs.«431307_j60284160967392_2_alg».proof.Proof.Gen.Kernel
import proofs.«431307_j60284160967392_2_alg».proof.Proof.Gen.Kernel.Frame
import proofs.«431307_j60284160967392_2_alg».proof.Proof.Gen.KernelIdeal
import proofs.«431307_j60284160967392_2_alg».proof.Proof.Gen.KernelIdeal.Frame
import proofs.«431307_j60284160967392_2_alg».proof.Proof.Gen.ReferenceIdeal
import proofs.«431307_j60284160967392_2_alg».proof.Proof.Gen.ReferenceIdeal.Run
import proofs.«431307_j60284160967392_2_alg».proof.Proof.Gen.Pre_finite_inputs
import proofs.«431307_j60284160967392_2_alg».proof.Proof.KernelRun
import proofs.«431307_j60284160967392_2_alg».proof.Proof.KernelHost
import proofs.«431307_j60284160967392_2_alg».proof.Proof.KernelChain
import proofs.«431307_j60284160967392_2_alg».proof.Proof.Algebra
import proofs.«431307_j60284160967392_2_alg».proof.Proof.RefRead
import proofs.«431307_j60284160967392_2_alg».proof.Proof.SrcIndex
import proofs.«431307_j60284160967392_2_alg».proof.Proof.Shared
import Idealize.ShloMosaic.Adequacy
import Idealize.ShloMosaic.Init

noncomputable section

namespace Cert.Proof

open Idealize.ShloMosaic Idealize.ShloMosaic.TcCoe Idealize.SL.Sem Cert.Gcn

section
open Cert.KernelIdeal Cert.KernelIdeal.Gen

theorem kernel_value (m : (ℓ : Loc nD τ sig) → Buf (Elt Ideal) ℓ) (ρ : Dev nD → PrngReg) (c : Dev nD) :
    W31 (F := Ideal) m ρ c (Proc.devRef .tc main_v69)
      = tailK
          (netK (padRowsF (m ((c : Thread nD τ).loc main_arg0))) (m ((c : Thread nD τ).loc main_arg4)) (biasRow (m ((c : Thread nD τ).loc main_arg5))) (m ((c : Thread nD τ).loc main_arg6)) (biasRow (m ((c : Thread nD τ).loc main_arg7)))
            (m ((c : Thread nD τ).loc main_arg8)) (biasRow (m ((c : Thread nD τ).loc main_arg9))) (padColI (srcOf (m ((c : Thread nD τ).loc main_arg1)))) (padColF (nrmK (m ((c : Thread nD τ).loc main_arg1)) (m ((c : Thread nD τ).loc main_arg2))))
            (padRowI (dstOf (m ((c : Thread nD τ).loc main_arg1)))) (padNodeColF (ssK (m ((c : Thread nD τ).loc main_arg1)) (m ((c : Thread nD τ).loc main_arg2)))) (padBatch (m ((c : Thread nD τ).loc main_arg3))))
          (cntK (m ((c : Thread nD τ).loc main_arg3))) (m ((c : Thread nD τ).loc main_arg10)) (m ((c : Thread nD τ).loc main_arg11)) := by
  rw [result_eq, pooled_value, v44_eq, v31_eq, v35_eq, v33_eq, v37_eq, v39_eq]

end

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W31 (F := Ideal) m ρ c (Proc.devRef .tc Cert.KernelIdeal.main_v69),
    Cert.KernelIdeal.Gen.run_result (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11⟩ := hagree c
  show _ = Cert.KernelIdeal.Gen.W31 (F := Ideal) m ρ c (Proc.devRef .tc Cert.KernelIdeal.main_v69)
  rw [Cert.ReferenceIdeal.Read.val_main_v163_eq, h0, h1, h2, h3, h4, h5, h6, h7, h8, h9, h10, h11,
    Cert.ReferenceIdeal.RefValue.result_eq, kernel_value, Cert.Shared.nrmK_eq_nrmR, Cert.Shared.ssK_eq_ssR, Cert.Shared.cntK_eq_cntR,
    Cert.Shared.tailK_eq_tailR,
    netK_eq_netR _ _ _ _ _ _ _ _ _ _ _ _ (Cert.ReferenceIdeal.RefValue.giR (m ((c.tc : Thread Cert.KernelIdeal.nD Cert.KernelIdeal.τ).loc Cert.KernelIdeal.main_arg1)))
      (fun e => Cert.SrcIndex.srcOf_eq_giR _ _ _ _ _ _ _ _ _ _ _ _ (hpre c) e)]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
